-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x1024 : Shape := ⟨2, ![128, 1024]⟩
abbrev S1024 : Shape := ⟨1, ![1024]⟩
abbrev S1024x2048 : Shape := ⟨2, ![1024, 2048]⟩
abbrev S2048 : Shape := ⟨1, ![2048]⟩
abbrev S2048x4096 : Shape := ⟨2, ![2048, 4096]⟩
abbrev S4096 : Shape := ⟨1, ![4096]⟩
abbrev S4096x4096 : Shape := ⟨2, ![4096, 4096]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part2 {F : FTy → Type} [FloatOps F] (main_arg7 : FVec F S4096x4096 .f32) (main_arg8 : FVec F S4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S2048 .f32) (main_arg5 : FVec F S2048x4096 .f32) (main_arg6 : FVec F S4096 .f32) (main_arg7 : FVec F S4096x4096 .f32) (main_arg8 : FVec F S4096 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S8192x128 .f32) (main_arg1 : FVec F S128x1024 .f32) (main_arg2 : FVec F S1024 .f32) (main_arg3 : FVec F S1024x2048 .f32) (main_arg4 : FVec F S2048 .f32) (main_arg5 : FVec F S2048x4096 .f32) (main_arg6 : FVec F S4096 .f32) (main_arg7 : FVec F S4096x4096 .f32) (main_arg8 : FVec F S4096 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_v13 main_v16
-- ==== Kernel.lean ====
abbrev S8192x128 : Shape := ⟨2, ![8192, 128]⟩
abbrev S128x1024 : Shape := ⟨2, ![128, 1024]⟩
abbrev S1024 : Shape := ⟨1, ![1024]⟩
abbrev S1024x2048 : Shape := ⟨2, ![1024, 2048]⟩
abbrev S2048 : Shape := ⟨1, ![2048]⟩
abbrev S2048x4096 : Shape := ⟨2, ![2048, 4096]⟩
abbrev S4096 : Shape := ⟨1, ![4096]⟩
abbrev S4096x4096 : Shape := ⟨2, ![4096, 4096]⟩
abbrev S1x1024 : Shape := ⟨2, ![1, 1024]⟩
abbrev S8192x1024 : Shape := ⟨2, ![8192, 1024]⟩
abbrev S512x128 : Shape := ⟨2, ![512, 128]⟩
abbrev S512x1024 : Shape := ⟨2, ![512, 1024]⟩
abbrev S1x2048 : Shape := ⟨2, ![1, 2048]⟩
abbrev S8192x2048 : Shape := ⟨2, ![8192, 2048]⟩
abbrev S1024x1024 : Shape := ⟨2, ![1024, 1024]⟩
abbrev S1x4096 : Shape := ⟨2, ![1, 4096]⟩
abbrev S8192x4096 : Shape := ⟨2, ![8192, 4096]⟩

abbrev nBuf : Space → Nat
  | .hbm => 17
  | .vmem => 34
  | .smem => 0
  | _ => 0

abbrev bufTy : (tb : Table) → Fin (tcTables nBuf tb) → BufTy
  | .hbm, ⟨0, _⟩ => ⟨S8192x128, .f32⟩
  | .hbm, ⟨1, _⟩ => ⟨S128x1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S2048x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S1x1024, .f32⟩
  | .hbm, ⟨10, _⟩ => ⟨S8192x1024, .f32⟩
  | .hbm, ⟨11, _⟩ => ⟨S1x2048, .f32⟩
  | .hbm, ⟨12, _⟩ => ⟨S8192x2048, .f32⟩
  | .hbm, ⟨13, _⟩ => ⟨S1x4096, .f32⟩
  | .hbm, ⟨14, _⟩ => ⟨S8192x4096, .f32⟩
  | .hbm, ⟨15, _⟩ => ⟨S1x4096, .f32⟩
  | .hbm, ⟨16, _⟩ => ⟨S8192x4096, .f32⟩
  | .local _ .vmem, ⟨0, _⟩ => ⟨S512x128, .f32⟩
  | .local _ .vmem, ⟨1, _⟩ => ⟨S512x128, .f32⟩
  | .local _ .vmem, ⟨2, _⟩ => ⟨S128x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1024x1024, .f32⟩
  | .local _ .vmem, ⟨19, _⟩ => ⟨S1024x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S1024x1024, .f32⟩
  | .local _ .vmem, ⟨28, _⟩ => ⟨S1024x1024, .f32⟩
  | .local _ .vmem, ⟨29, _⟩ => ⟨S1x1024, .f32⟩
  | .local _ .vmem, ⟨30, _⟩ => ⟨S1x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_12 : BitVec 32 := 0#32
  let v22 : BitVec 1 := Scalar.cmpi .eq arg2 c0_i32_12
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![16, 2, 1], ![false, false, false]⟩

def k1_cond2 (i : grid1.Coords) : BitVec 1 :=
  let arg2 : BitVec 32 := BitVec.ofNat 32 (i 2).val
  let c0_i32_12 : BitVec 32 := 0#32
  let v23 : BitVec 1 := Scalar.cmpi .eq arg2 c0_i32_12
  let v24 : BitVec 32 := Scalar.extui v23
  let c0_i32_13 : BitVec 32 := 0#32
  let v25 : BitVec 1 := Scalar.cmpi .ne v24 c0_i32_13
  v25

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![16, 4, 2], ![false, false, false]⟩

def k2_cond2 (i : grid2.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_12 : BitVec 32 := 0#32
  let v25 : BitVec 1 := Scalar.cmpi .ne v24 c0_i32_12
  v25

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![16, 4, 4], ![false, false, false]⟩

def k3_cond2 (i : grid3.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_12 : BitVec 32 := 0#32
  let v25 : BitVec 1 := Scalar.cmpi .ne v24 c0_i32_12
  v25

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S128x1024_S128x1024_0_0 : ∀ a, (![0, 0] : Fin 2 → Nat) a + S128x1024.size a ≤ S128x1024.size a
  h_S128x1024 : 0 < S128x1024.numel
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S2048_S1x2048 : S2048.ShapeCasts S1x2048
  inb_S1024x1024_S1024x1024_0_0 : ∀ a, (![0, 0] : Fin 2 → Nat) a + S1024x1024.size a ≤ S1024x1024.size a
  h_S1024x1024 : 0 < S1024x1024.numel
  shapeCasts_S4096_S1x4096 : S4096.ShapeCasts S1x4096
  dot_S512x128_S128x1024_S512x1024_1_0_0_1_n_n_wf : DotDims.WF S512x128 S128x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x2048.size a
  hwx1_1 : ∀ i : grid1.Coords, EltTy.bits .f32 = 32 ∨ (Rect.block (s := S1024x2048) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x2048.size a
  hwx1_3 : ∀ i : grid1.Coords, EltTy.bits .f32 = 32 ∨ (Rect.block (s := S8192x2048) S512x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x2048.size a
  hwx2_0 : ∀ i : grid2.Coords, EltTy.bits .f32 = 32 ∨ (Rect.block (s := S8192x2048) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S2048x4096.size a
  hwx2_1 : ∀ i : grid2.Coords, EltTy.bits .f32 = 32 ∨ (Rect.block (s := S2048x4096) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x4096.size a
  hwx2_3 : ∀ i : grid2.Coords, EltTy.bits .f32 = 32 ∨ (Rect.block (s := S8192x4096) S512x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S8192x4096.size a
  hwx3_0 : ∀ i : grid3.Coords, EltTy.bits .f32 = 32 ∨ (Rect.block (s := S8192x4096) S512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .f32 = 32 ∨ (Rect.block (s := S4096x4096) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S8192x4096.size a
  hwx3_3 : ∀ i : grid3.Coords, EltTy.bits .f32 = 32 ∨ (Rect.block (s := S8192x4096) S512x1024.size (cc3_transform_3 i) (hinb3_3 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v3) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v5) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S128x1024 : Shape := ⟨2, ![128, 1024]⟩
abbrev S1024 : Shape := ⟨1, ![1024]⟩
abbrev S1024x2048 : Shape := ⟨2, ![1024, 2048]⟩
abbrev S2048 : Shape := ⟨1, ![2048]⟩
abbrev S2048x4096 : Shape := ⟨2, ![2048, 4096]⟩
abbrev S4096 : Shape := ⟨1, ![4096]⟩
abbrev S4096x4096 : Shape := ⟨2, ![4096, 4096]⟩
abbrev S_ : Shape := ⟨0, ![]⟩
abbrev S8192x1024 : Shape := ⟨2, ![8192, 1024]⟩
abbrev S1x1024 : Shape := ⟨2, ![1, 1024]⟩
abbrev S8192x2048 : Shape := ⟨2, ![8192, 2048]⟩
abbrev S1x2048 : Shape := ⟨2, ![1, 2048]⟩
abbrev S8192x4096 : Shape := ⟨2, ![8192, 4096]⟩
abbrev S1x4096 : Shape := ⟨2, ![1, 4096]⟩

abbrev nBuf : Space → Nat
  | .hbm => 212
  | .vmem => 0
  | .smem => 0
  | _ => 0

abbrev hbmTy0_0 (i : Nat) : BufTy := match i % 128 with
  | 0 => ⟨S8192x128, .f32⟩
  | 1 => ⟨S128x1024, .f32⟩
  | 2 => ⟨S1024, .f32⟩
  | 3 => ⟨S1024x2048, .f32⟩
  | 4 => ⟨S2048, .f32⟩
  | 5 => ⟨S2048x4096, .f32⟩
  | 6 => ⟨S4096, .f32⟩
  | 7 => ⟨S4096x4096, .f32⟩
  | 8 => ⟨S4096, .f32⟩
  | 9 => ⟨S_, .f32⟩
  | 10 => ⟨S128x1024, .f32⟩
  | 11 => ⟨S128x1024, .f32⟩
  | 12 => ⟨S128x1024, .f32⟩
  | 13 => ⟨S128x1024, .f32⟩
  | 14 => ⟨S128x1024, .f32⟩
  | 15 => ⟨S_, .f32⟩
  | 16 => ⟨S_, .f32⟩
  | 17 => ⟨S_, .f32⟩
  | 18 => ⟨S128x1024, .f32⟩
  | 19 => ⟨S128x1024, .f32⟩
  | 20 => ⟨S_, .f32⟩
  | 21 => ⟨S128x1024, .f32⟩
  | 22 => ⟨S128x1024, .f32⟩
  | 23 => ⟨S_, .f32⟩
  | 24 => ⟨S128x1024, .f32⟩
  | 25 => ⟨S128x1024, .f32⟩
  | 26 => ⟨S_, .f32⟩
  | 27 => ⟨S1024, .f32⟩
  | 28 => ⟨S1024, .f32⟩
  | 29 => ⟨S1024, .f32⟩
  | 30 => ⟨S1024, .f32⟩
  | 31 => ⟨S1024, .f32⟩
  | 32 => ⟨S_, .f32⟩
  | 33 => ⟨S_, .f32⟩
  | 34 => ⟨S_, .f32⟩
  | 35 => ⟨S1024, .f32⟩
  | 36 => ⟨S1024, .f32⟩
  | 37 => ⟨S_, .f32⟩
  | 38 => ⟨S1024, .f32⟩
  | 39 => ⟨S1024, .f32⟩
  | 40 => ⟨S_, .f32⟩
  | 41 => ⟨S1024, .f32⟩
  | 42 => ⟨S1024, .f32⟩
  | 43 => ⟨S8192x1024, .f32⟩
  | 44 => ⟨S1x1024, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S_, .f32⟩
  | 55 => ⟨S_, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S1024x2048, .f32⟩
  | 66 => ⟨S1024x2048, .f32⟩
  | 67 => ⟨S1024x2048, .f32⟩
  | 68 => ⟨S1024x2048, .f32⟩
  | 69 => ⟨S1024x2048, .f32⟩
  | 70 => ⟨S_, .f32⟩
  | 71 => ⟨S_, .f32⟩
  | 72 => ⟨S_, .f32⟩
  | 73 => ⟨S1024x2048, .f32⟩
  | 74 => ⟨S1024x2048, .f32⟩
  | 75 => ⟨S_, .f32⟩
  | 76 => ⟨S1024x2048, .f32⟩
  | 77 => ⟨S1024x2048, .f32⟩
  | 78 => ⟨S_, .f32⟩
  | 79 => ⟨S1024x2048, .f32⟩
  | 80 => ⟨S1024x2048, .f32⟩
  | 81 => ⟨S_, .f32⟩
  | 82 => ⟨S2048, .f32⟩
  | 83 => ⟨S2048, .f32⟩
  | 84 => ⟨S2048, .f32⟩
  | 85 => ⟨S2048, .f32⟩
  | 86 => ⟨S2048, .f32⟩
  | 87 => ⟨S_, .f32⟩
  | 88 => ⟨S_, .f32⟩
  | 89 => ⟨S_, .f32⟩
  | 90 => ⟨S2048, .f32⟩
  | 91 => ⟨S2048, .f32⟩
  | 92 => ⟨S_, .f32⟩
  | 93 => ⟨S2048, .f32⟩
  | 94 => ⟨S2048, .f32⟩
  | 95 => ⟨S_, .f32⟩
  | 96 => ⟨S2048, .f32⟩
  | 97 => ⟨S2048, .f32⟩
  | 98 => ⟨S8192x2048, .f32⟩
  | 99 => ⟨S1x2048, .f32⟩
  | 100 => ⟨S8192x2048, .f32⟩
  | 101 => ⟨S8192x2048, .f32⟩
  | 102 => ⟨S_, .f32⟩
  | 103 => ⟨S8192x2048, .f32⟩
  | 104 => ⟨S8192x2048, .f32⟩
  | 105 => ⟨S8192x2048, .f32⟩
  | 106 => ⟨S8192x2048, .f32⟩
  | 107 => ⟨S8192x2048, .f32⟩
  | 108 => ⟨S_, .f32⟩
  | 109 => ⟨S_, .f32⟩
  | 110 => ⟨S_, .f32⟩
  | 111 => ⟨S8192x2048, .f32⟩
  | 112 => ⟨S8192x2048, .f32⟩
  | 113 => ⟨S_, .f32⟩
  | 114 => ⟨S8192x2048, .f32⟩
  | 115 => ⟨S8192x2048, .f32⟩
  | 116 => ⟨S_, .f32⟩
  | 117 => ⟨S8192x2048, .f32⟩
  | 118 => ⟨S8192x2048, .f32⟩
  | 119 => ⟨S_, .f32⟩
  | 120 => ⟨S2048x4096, .f32⟩
  | 121 => ⟨S2048x4096, .f32⟩
  | 122 => ⟨S2048x4096, .f32⟩
  | 123 => ⟨S2048x4096, .f32⟩
  | 124 => ⟨S2048x4096, .f32⟩
  | 125 => ⟨S_, .f32⟩
  | 126 => ⟨S_, .f32⟩
  | 127 => ⟨S_, .f32⟩
  | _ => ⟨S8192x128, .f32⟩

abbrev hbmTy0_1 (i : Nat) : BufTy := match i % 128 with
  | 0 => ⟨S2048x4096, .f32⟩
  | 1 => ⟨S2048x4096, .f32⟩
  | 2 => ⟨S_, .f32⟩
  | 3 => ⟨S2048x4096, .f32⟩
  | 4 => ⟨S2048x4096, .f32⟩
  | 5 => ⟨S_, .f32⟩
  | 6 => ⟨S2048x4096, .f32⟩
  | 7 => ⟨S2048x4096, .f32⟩
  | 8 => ⟨S_, .f32⟩
  | 9 => ⟨S4096, .f32⟩
  | 10 => ⟨S4096, .f32⟩
  | 11 => ⟨S4096, .f32⟩
  | 12 => ⟨S4096, .f32⟩
  | 13 => ⟨S4096, .f32⟩
  | 14 => ⟨S_, .f32⟩
  | 15 => ⟨S_, .f32⟩
  | 16 => ⟨S_, .f32⟩
  | 17 => ⟨S4096, .f32⟩
  | 18 => ⟨S4096, .f32⟩
  | 19 => ⟨S_, .f32⟩
  | 20 => ⟨S4096, .f32⟩
  | 21 => ⟨S4096, .f32⟩
  | 22 => ⟨S_, .f32⟩
  | 23 => ⟨S4096, .f32⟩
  | 24 => ⟨S4096, .f32⟩
  | 25 => ⟨S8192x4096, .f32⟩
  | 26 => ⟨S1x4096, .f32⟩
  | 27 => ⟨S8192x4096, .f32⟩
  | 28 => ⟨S8192x4096, .f32⟩
  | 29 => ⟨S_, .f32⟩
  | 30 => ⟨S8192x4096, .f32⟩
  | 31 => ⟨S8192x4096, .f32⟩
  | 32 => ⟨S8192x4096, .f32⟩
  | 33 => ⟨S8192x4096, .f32⟩
  | 34 => ⟨S8192x4096, .f32⟩
  | 35 => ⟨S_, .f32⟩
  | 36 => ⟨S_, .f32⟩
  | 37 => ⟨S_, .f32⟩
  | 38 => ⟨S8192x4096, .f32⟩
  | 39 => ⟨S8192x4096, .f32⟩
  | 40 => ⟨S_, .f32⟩
  | 41 => ⟨S8192x4096, .f32⟩
  | 42 => ⟨S8192x4096, .f32⟩
  | 43 => ⟨S_, .f32⟩
  | 44 => ⟨S8192x4096, .f32⟩
  | 45 => ⟨S8192x4096, .f32⟩
  | 46 => ⟨S_, .f32⟩
  | 47 => ⟨S4096x4096, .f32⟩
  | 48 => ⟨S4096x4096, .f32⟩
  | 49 => ⟨S4096x4096, .f32⟩
  | 50 => ⟨S4096x4096, .f32⟩
  | 51 => ⟨S4096x4096, .f32⟩
  | 52 => ⟨S_, .f32⟩
  | 53 => ⟨S_, .f32⟩
  | 54 => ⟨S_, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S_, .f32⟩
  | 61 => ⟨S4096x4096, .f32⟩
  | 62 => ⟨S4096x4096, .f32⟩
  | 63 => ⟨S_, .f32⟩
  | 64 => ⟨S4096, .f32⟩
  | 65 => ⟨S4096, .f32⟩
  | 66 => ⟨S4096, .f32⟩
  | 67 => ⟨S4096, .f32⟩
  | 68 => ⟨S4096, .f32⟩
  | 69 => ⟨S_, .f32⟩
  | 70 => ⟨S_, .f32⟩
  | 71 => ⟨S_, .f32⟩
  | 72 => ⟨S4096, .f32⟩
  | 73 => ⟨S4096, .f32⟩
  | 74 => ⟨S_, .f32⟩
  | 75 => ⟨S4096, .f32⟩
  | 76 => ⟨S4096, .f32⟩
  | 77 => ⟨S_, .f32⟩
  | 78 => ⟨S4096, .f32⟩
  | 79 => ⟨S4096, .f32⟩
  | 80 => ⟨S8192x4096, .f32⟩
  | 81 => ⟨S1x4096, .f32⟩
  | 82 => ⟨S8192x4096, .f32⟩
  | 83 => ⟨S8192x4096, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_cst_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_cst_5 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_v13 : Ref sig .tc := ⟨.hbm, 39, rfl⟩
abbrev main_cst_6 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_7 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_8 : Ref sig .tc := ⟨.hbm, 53, rfl⟩
abbrev main_cst_9 : Ref sig .tc := ⟨.hbm, 54, rfl⟩
abbrev main_call5_v0 : Ref sig .tc := ⟨.hbm, 55, rfl⟩
abbrev main_call5_v1 : Ref sig .tc := ⟨.hbm, 56, rfl⟩
abbrev main_call5_v2 : Ref sig .tc := ⟨.hbm, 57, rfl⟩
abbrev main_call5_v3 : Ref sig .tc := ⟨.hbm, 58, rfl⟩
abbrev main_call5_v4 : Ref sig .tc := ⟨.hbm, 59, rfl⟩
abbrev main_v25 : Ref sig .tc := ⟨.hbm, 60, rfl⟩
abbrev main_cst_10 : Ref sig .tc := ⟨.hbm, 61, rfl⟩
abbrev main_v26 : Ref sig .tc := ⟨.hbm, 62, rfl⟩
abbrev main_v27 : Ref sig .tc := ⟨.hbm, 63, rfl⟩
abbrev main_cst_11 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_12 : Ref sig .tc := ⟨.hbm, 70, rfl⟩
abbrev main_cst_13 : Ref sig .tc := ⟨.hbm, 71, rfl⟩
abbrev main_call7_v0 : Ref sig .tc := ⟨.hbm, 72, rfl⟩
abbrev main_call7_v1 : Ref sig .tc := ⟨.hbm, 73, rfl⟩
abbrev main_call7_v2 : Ref sig .tc := ⟨.hbm, 74, rfl⟩
abbrev main_call7_v3 : Ref sig .tc := ⟨.hbm, 75, rfl⟩
abbrev main_call7_v4 : Ref sig .tc := ⟨.hbm, 76, rfl⟩
abbrev main_v33 : Ref sig .tc := ⟨.hbm, 77, rfl⟩
abbrev main_cst_14 : Ref sig .tc := ⟨.hbm, 78, rfl⟩
abbrev main_v34 : Ref sig .tc := ⟨.hbm, 79, rfl⟩
abbrev main_v35 : Ref sig .tc := ⟨.hbm, 80, rfl⟩
abbrev main_cst_15 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_16 : Ref sig .tc := ⟨.hbm, 87, rfl⟩
abbrev main_cst_17 : Ref sig .tc := ⟨.hbm, 88, rfl⟩
abbrev main_call9_v0 : Ref sig .tc := ⟨.hbm, 89, rfl⟩
abbrev main_call9_v1 : Ref sig .tc := ⟨.hbm, 90, rfl⟩
abbrev main_call9_v2 : Ref sig .tc := ⟨.hbm, 91, rfl⟩
abbrev main_call9_v3 : Ref sig .tc := ⟨.hbm, 92, rfl⟩
abbrev main_call9_v4 : Ref sig .tc := ⟨.hbm, 93, rfl⟩
abbrev main_v41 : Ref sig .tc := ⟨.hbm, 94, rfl⟩
abbrev main_cst_18 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_cst_19 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_20 : Ref sig .tc := ⟨.hbm, 108, rfl⟩
abbrev main_cst_21 : Ref sig .tc := ⟨.hbm, 109, rfl⟩
abbrev main_call11_v0 : Ref sig .tc := ⟨.hbm, 110, rfl⟩
abbrev main_call11_v1 : Ref sig .tc := ⟨.hbm, 111, rfl⟩
abbrev main_call11_v2 : Ref sig .tc := ⟨.hbm, 112, rfl⟩
abbrev main_call11_v3 : Ref sig .tc := ⟨.hbm, 113, rfl⟩
abbrev main_call11_v4 : Ref sig .tc := ⟨.hbm, 114, rfl⟩
abbrev main_v53 : Ref sig .tc := ⟨.hbm, 115, rfl⟩
abbrev main_cst_22 : Ref sig .tc := ⟨.hbm, 116, rfl⟩
abbrev main_v54 : Ref sig .tc := ⟨.hbm, 117, rfl⟩
abbrev main_v55 : Ref sig .tc := ⟨.hbm, 118, rfl⟩
abbrev main_cst_23 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_cst_24 : Ref sig .tc := ⟨.hbm, 125, rfl⟩
abbrev main_cst_25 : Ref sig .tc := ⟨.hbm, 126, rfl⟩
abbrev main_call13_v0 : Ref sig .tc := ⟨.hbm, 127, rfl⟩
abbrev main_call13_v1 : Ref sig .tc := ⟨.hbm, 128, rfl⟩
abbrev main_call13_v2 : Ref sig .tc := ⟨.hbm, 129, rfl⟩
abbrev main_call13_v3 : Ref sig .tc := ⟨.hbm, 130, rfl⟩
abbrev main_call13_v4 : Ref sig .tc := ⟨.hbm, 131, rfl⟩
abbrev main_v61 : Ref sig .tc := ⟨.hbm, 132, rfl⟩
abbrev main_cst_26 : Ref sig .tc := ⟨.hbm, 133, rfl⟩
abbrev main_v62 : Ref sig .tc := ⟨.hbm, 134, rfl⟩
abbrev main_v63 : Ref sig .tc := ⟨.hbm, 135, rfl⟩
abbrev main_cst_27 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_cst_28 : Ref sig .tc := ⟨.hbm, 142, rfl⟩
abbrev main_cst_29 : Ref sig .tc := ⟨.hbm, 143, rfl⟩
abbrev main_call15_v0 : Ref sig .tc := ⟨.hbm, 144, rfl⟩
abbrev main_call15_v1 : Ref sig .tc := ⟨.hbm, 145, rfl⟩
abbrev main_call15_v2 : Ref sig .tc := ⟨.hbm, 146, rfl⟩
abbrev main_call15_v3 : Ref sig .tc := ⟨.hbm, 147, rfl⟩
abbrev main_call15_v4 : Ref sig .tc := ⟨.hbm, 148, rfl⟩
abbrev main_v69 : Ref sig .tc := ⟨.hbm, 149, rfl⟩
abbrev main_cst_30 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_cst_31 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_cst_32 : Ref sig .tc := ⟨.hbm, 163, rfl⟩
abbrev main_cst_33 : Ref sig .tc := ⟨.hbm, 164, rfl⟩
abbrev main_call17_v0 : Ref sig .tc := ⟨.hbm, 165, rfl⟩
abbrev main_call17_v1 : Ref sig .tc := ⟨.hbm, 166, rfl⟩
abbrev main_call17_v2 : Ref sig .tc := ⟨.hbm, 167, rfl⟩
abbrev main_call17_v3 : Ref sig .tc := ⟨.hbm, 168, rfl⟩
abbrev main_call17_v4 : Ref sig .tc := ⟨.hbm, 169, rfl⟩
abbrev main_v81 : Ref sig .tc := ⟨.hbm, 170, rfl⟩
abbrev main_cst_34 : Ref sig .tc := ⟨.hbm, 171, rfl⟩
abbrev main_v82 : Ref sig .tc := ⟨.hbm, 172, rfl⟩
abbrev main_v83 : Ref sig .tc := ⟨.hbm, 173, rfl⟩
abbrev main_cst_35 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_cst_36 : Ref sig .tc := ⟨.hbm, 180, rfl⟩
abbrev main_cst_37 : Ref sig .tc := ⟨.hbm, 181, rfl⟩
abbrev main_call19_v0 : Ref sig .tc := ⟨.hbm, 182, rfl⟩
abbrev main_call19_v1 : Ref sig .tc := ⟨.hbm, 183, rfl⟩
abbrev main_call19_v2 : Ref sig .tc := ⟨.hbm, 184, rfl⟩
abbrev main_call19_v3 : Ref sig .tc := ⟨.hbm, 185, rfl⟩
abbrev main_call19_v4 : Ref sig .tc := ⟨.hbm, 186, rfl⟩
abbrev main_v89 : Ref sig .tc := ⟨.hbm, 187, rfl⟩
abbrev main_cst_38 : Ref sig .tc := ⟨.hbm, 188, rfl⟩
abbrev main_v90 : Ref sig .tc := ⟨.hbm, 189, rfl⟩
abbrev main_v91 : Ref sig .tc := ⟨.hbm, 190, rfl⟩
abbrev main_cst_39 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_cst_40 : Ref sig .tc := ⟨.hbm, 197, rfl⟩
abbrev main_cst_41 : Ref sig .tc := ⟨.hbm, 198, rfl⟩
abbrev main_call21_v0 : Ref sig .tc := ⟨.hbm, 199, rfl⟩
abbrev main_call21_v1 : Ref sig .tc := ⟨.hbm, 200, rfl⟩
abbrev main_call21_v2 : Ref sig .tc := ⟨.hbm, 201, rfl⟩
abbrev main_call21_v3 : Ref sig .tc := ⟨.hbm, 202, rfl⟩
abbrev main_call21_v4 : Ref sig .tc := ⟨.hbm, 203, rfl⟩
abbrev main_v97 : Ref sig .tc := ⟨.hbm, 204, rfl⟩
abbrev main_cst_42 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩

abbrev nD : Nat := 1
abbrev τ : Topo := Topo.v7x

variable {F : FTy → Type} [FloatOps F]

class Facts₀ : Prop where
  bcast_S_S128x1024 : S_.BroadcastsInDim S128x1024 (![] : Fin 0 → Fin S128x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S_S1024x2048 : S_.BroadcastsInDim S1024x2048 (![] : Fin 0 → Fin S1024x2048.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S_S2048x4096 : S_.BroadcastsInDim S2048x4096 (![] : Fin 0 → Fin S2048x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S_S4096x4096 : S_.BroadcastsInDim S4096x4096 (![] : Fin 0 → Fin S4096x4096.rank)
  dot_S8192x128_S128x1024_S8192x1024_1_0_0_1_n_n_wf : DotDims.WF S8192x128 S128x1024 S8192x1024 [1] [0] [0] [1] [] []
  dot_S8192x1024_S1024x2048_S8192x2048_1_0_0_1_n_n_wf : DotDims.WF S8192x1024 S1024x2048 S8192x2048 [1] [0] [0] [1] [] []
  dot_S8192x2048_S2048x4096_S8192x4096_1_0_0_1_n_n_wf : DotDims.WF S8192x2048 S2048x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S8192x128_S128x1024_S8192x1024_1_0_0_1_n_n : DotDims S8192x128 S128x1024 S8192x1024 where
  lhsContracting := [1]
  rhsContracting := [0]
  lhsNonContracting := [0]
  rhsNonContracting := [1]
  lhsBatch := []
  rhsBatch := []
  wf := dot_S8192x128_S128x1024_S8192x1024_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibWholeStore.lean ====
import Idealize.ShloMosaic.Lib.Pipeline.Value

noncomputable section

namespace Cert.LibWholeStore

open Idealize.ShloMosaic

variable {Val : EltTy → Type} {S : Shape} {e : EltTy}

/-- If the latest store wrote the whole shape, a whole-shape load reads that store's value, whatever lies underneath. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.LibWholeStore

end
-- ==== Proof.KBBody0.lean ====
import proofs.«118811_j6030134084248_1_alg».proof.Proof.Gen.Kernel.Launch
import proofs.«118811_j6030134084248_1_alg».proof.Proof.Gen.Kernel.Skeleton
import proofs.«118811_j6030134084248_1_alg».proof.Proof.Gen.Kernel.Points
import Idealize.ShloMosaic.Lib.Pipeline.FrameBody
import Idealize.ShloMosaic.Lib.Pipeline.Value
import proofs.«118811_j6030134084248_1_alg».proof.Proof.LibWholeStore
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0 : (![0, 0] : Fin 2 → Nat) = fun _ => 0 := funext fun a => by fin_cases a <;> rfl

abbrev first0 (i : grid0.Coords) : Prop := (Scalar.cmpi .ne (Scalar.extui (Scalar.cmpi .eq (BitVec.ofNat 32 (i 2).val) 0#32)) 0#32) = 1#1
abbrev last0 (i : grid0.Coords) : Prop := k0_cond2 i = 1#1

variable (c : Dev nD) (i : grid0.Coords) (arg3 : Memref sig .tc .vmem S512x128 .f32) (harg3 : arg3.IsWhole)
  (arg4 : Memref sig .tc .vmem S128x1024 .f32) (harg4 : arg4.IsWhole) (arg5 : Memref sig .tc .vmem S1x1024 .f32) (harg5 : arg5.IsWhole)
  (arg6 : Memref sig .tc .vmem S512x1024 .f32) (harg6 : arg6.IsWhole) (arg7 : Memref sig .tc .vmem S512x1024 .f32) (harg7 : arg7.IsWhole)
  (x : Vec F S512x128 .f32) (w : Vec F S128x1024 .f32) (b : Vec F S1x1024 .f32)

/-- Every point is a first and a last K-step: the body zeroes the accumulator, adds the block product, and stores the
    activation of the sum plus the bias row. -/
theorem run0 (hc0 : first0 i) (hc1 : last0 i) (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare (k0_pay3 b (k0_pay2 w x (k0_pay1 (F := F))))
            ∗ owns (c : Thread nD τ) arg7 fullShare (k0_pay2 w x (k0_pay1 (F := F)))) -∗ K ⟨⟩))
      ⊢ wp frame (wpE (defs₀ (F := F)) Variants.none c none) E (cc0__qdense_kernel i arg3 harg3 arg4 harg4 arg5 harg5 arg6 harg6 arg7 harg7) K := by
  simp only [cc0__qdense_kernel_eq_skeleton]; unfold cc0__qdense_kernel_skel
  unfold owns
  iintro ⟨⟨%f3, %hf3, H3⟩, ⟨%f4, %hf4, H4⟩, ⟨%f5, %hf5, H5⟩, ⟨%d6, %f6, -, H6⟩, ⟨%d7, %f7, -, H7⟩, Hk⟩
  obtain rfl := harg3.eq_unread hf3; obtain rfl := harg4.eq_unread hf4; obtain rfl := harg5.eq_unread hf5
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (View.read_writes_eq_canon _ _ _ (View.cover_of_tiledL _ S512x1024.size (by sl_kernel_rfl))).trans ?_
    sl_unfold_words
    rw [View.canon_cons_unit_zero (S := S512x1024) hz0]
    simp only [View.readCov_unit_zero (S := S512x1024) _ hz0, Cert.LibWholeStore.readCov_cons_unit_zero (S := S512x1024) _ hz0, View.readAt_eq_ld, harg3.read_unread, harg4.read_unread, harg5.read_unread, harg6.read_unread, harg7.read_unread, View.ld_unit_zero (S := S512x128) hz0, View.ld_unit_zero (S := S128x1024) hz0, View.ld_unit_zero (S := S512x1024) hz0, View.ld_unit_zero (S := S1x1024) hz0]
  iexists _; isplitr
  swap; · iexact H7
  ipureintro
  refine (View.read_writes_eq_canon _ _ _ (View.cover_of_tiledL _ S512x1024.size (by sl_kernel_rfl))).trans ?_
  sl_unfold_words
  rw [View.canon_cons_unit_zero (S := S512x1024) hz0]
  simp only [View.readCov_unit_zero (S := S512x1024) _ hz0, Cert.LibWholeStore.readCov_cons_unit_zero (S := S512x1024) _ hz0, View.readAt_eq_ld, harg3.read_unread, harg4.read_unread, harg5.read_unread, harg6.read_unread, harg7.read_unread, View.ld_unit_zero (S := S512x128) hz0, View.ld_unit_zero (S := S128x1024) hz0, View.ld_unit_zero (S := S512x1024) hz0, View.ld_unit_zero (S := S1x1024) hz0]

end Cert.Kernel.Hand
end
-- ==== Proof.KBRegion0.lean ====
import proofs.«118811_j6030134084248_1_alg».proof.Proof.KBBody0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xblk0 (c : Dev nD) (t : Fin cfg0.N) : Vec F S512x128 .f32 := iblk0 V c 0 t
abbrev wblk0 (c : Dev nD) (t : Fin cfg0.N) : Vec F S128x1024 .f32 := iblk0 V c 1 t
abbrev bblk0 (c : Dev nD) (t : Fin cfg0.N) : Vec F S1x1024 .f32 := iblk0 V c 2 t

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev scM0 : Memref sig .tc .vmem S512x1024 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ rest0 (F := F) c) := by
  rw [scopedRest0_split]; simp only [scM0, owns_whole]; rfl

theorem hfirst0 : ∀ t : Fin cfg0.N, first0 (grid0.coords t) :=
  (by decide +kernel : ∀ t : Fin grid0.N, first0 (grid0.coords t))
theorem hlast0 : ∀ t : Fin cfg0.N, last0 (grid0.coords t) :=
  (by decide +kernel : ∀ t : Fin grid0.N, last0 (grid0.coords t))
theorem live0_3 : ∀ t : Fin cfg0.N, cfg0.idle 3 (grid0.coords t) = false := by decide +kernel

/-- What the accumulator holds after point `n`: its one step over the zero block. -/
def accAt0 (c : Dev nD) (n : ℕ) (hn : n < cfg0.N) : Vec F S512x1024 .f32 :=
  k0_pay2 (wblk0 V c ⟨n, hn⟩) (xblk0 V c ⟨n, hn⟩) (k0_pay1 (F := F))

/-- Every point is a first K-step, so no point depends on the accumulator left by the one before. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (bblk0 V c t) (accAt0 V c t.val t.isLt)
  Φ _ := Pipeline.scopedRest (Ix := Unit) (Name := ℕ) (U := UR sig nD τ) (Lvl := ℕ) (Val := Elt F) spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (bblk0 V c t) (accAt0 V c t.val t.isLt) := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).leavesExact 0 t = owns (c : Thread nD τ) (ms0_0 t) fullShare ((dat0 V c).after 0 t) from rfl, after0_0,
    show (dat0 V c).leavesExact 1 t = owns (c : Thread nD τ) (ms0_1 t) fullShare ((dat0 V c).after 1 t) from rfl, after0_1,
    show (dat0 V c).leavesExact 2 t = owns (c : Thread nD τ) (ms0_2 t) fullShare ((dat0 V c).after 2 t) from rfl, after0_2]
  rw [show (dat0 V c).leavesExact 3 t = owns (c : Thread nD τ) (ms0_3 t) fullShare ((dat0 V c).after 3 t) from by
      unfold Dat.leavesExact; rw [live0_3 t], after0_3,
    show accAt0 V c t.val t.isLt = k0_pay2 (wblk0 V c t) (xblk0 V c t) (k0_pay1 (F := F)) from rfl,
    show (dat0 V c).Φ t.succ = (dat0 V c).Φ t.castSucc from rfl,
    show (dat0 V c).Φ t.castSucc = Pipeline.scopedRest (Ix := Unit) (Name := ℕ) (U := UR sig nD τ) (Lvl := ℕ) (Val := Elt F) spec0 c from rfl,
    scopedRest0_owns]
  iintro ⟨⟨HS, Hr⟩, Ho, ⟨%d0, H0⟩, ⟨%d1, H1⟩, ⟨%d2, H2⟩, ⟨%d3, H3⟩⟩
  iapply (run0 c (grid0.coords t) (ms0_0 t) (hs0_0 t) (ms0_1 t) (hs0_1 t) (ms0_2 t) (hs0_2 t) (ms0_3 t) (hs0_3 t) scM0 (Memref.isWhole_whole _)
    (xblk0 V c t) (wblk0 V c t) (bblk0 V c t) (hfirst0 t) (hlast0 t) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hr]
  · isplitl [HS]; · iexists _; iexact HS
    iexact Hr
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) :
    (Pipeline.scopedRest (Ix := Unit) (Name := ℕ) (U := UR sig nD τ) (Lvl := ℕ) (Val := Elt F) spec0 c : sProp 𝕄) ⊢ (dat0 V c).Φ 0 := .rfl

theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := .rfl

end Cert.Kernel.Hand
end
-- ==== Proof.KBBody1.lean ====
import proofs.«118811_j6030134084248_1_alg».proof.Proof.Gen.Kernel.Launch
import proofs.«118811_j6030134084248_1_alg».proof.Proof.Gen.Kernel.Skeleton
import proofs.«118811_j6030134084248_1_alg».proof.Proof.Gen.Kernel.Points
import Idealize.ShloMosaic.Lib.Pipeline.FrameBody
import Idealize.ShloMosaic.Lib.Pipeline.Value
import proofs.«118811_j6030134084248_1_alg».proof.Proof.LibWholeStore
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

abbrev first1 (i : grid1.Coords) : Prop := (Scalar.cmpi .ne (Scalar.extui (Scalar.cmpi .eq (BitVec.ofNat 32 (i 2).val) 0#32)) 0#32) = 1#1
abbrev last1 (i : grid1.Coords) : Prop := k1_cond2 i = 1#1

variable (c : Dev nD) (i : grid1.Coords) (arg3 : Memref sig .tc .vmem S512x1024 .f32) (harg3 : arg3.IsWhole)
  (arg4 : Memref sig .tc .vmem S1024x1024 .f32) (harg4 : arg4.IsWhole) (arg5 : Memref sig .tc .vmem S1x1024 .f32) (harg5 : arg5.IsWhole)
  (arg6 : Memref sig .tc .vmem S512x1024 .f32) (harg6 : arg6.IsWhole) (arg7 : Memref sig .tc .vmem S512x1024 .f32) (harg7 : arg7.IsWhole)
  (x : Vec F S512x1024 .f32) (w : Vec F S1024x1024 .f32) (b : Vec F S1x1024 .f32)

/-- Every point is a first and a last K-step: the body zeroes the accumulator, adds the block product, and stores the
    activation of the sum plus the bias row. -/
theorem run1 (hc0 : first1 i) (hc1 : last1 i) (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare (k1_pay3 b (k1_pay2 w x (k1_pay1 (F := F))))
            ∗ owns (c : Thread nD τ) arg7 fullShare (k1_pay2 w x (k1_pay1 (F := F)))) -∗ K ⟨⟩))
      ⊢ wp frame (wpE (defs₀ (F := F)) Variants.none c none) E (cc1__qdense_kernel i arg3 harg3 arg4 harg4 arg5 harg5 arg6 harg6 arg7 harg7) K := by
  simp only [cc1__qdense_kernel_eq_skeleton]; unfold cc1__qdense_kernel_skel
  unfold owns
  iintro ⟨⟨%f3, %hf3, H3⟩, ⟨%f4, %hf4, H4⟩, ⟨%f5, %hf5, H5⟩, ⟨%d6, %f6, -, H6⟩, ⟨%d7, %f7, -, H7⟩, Hk⟩
  obtain rfl := harg3.eq_unread hf3; obtain rfl := harg4.eq_unread hf4; obtain rfl := harg5.eq_unread hf5
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (View.read_writes_eq_canon _ _ _ (View.cover_of_tiledL _ S512x1024.size (by sl_kernel_rfl))).trans ?_
    sl_unfold_words
    rw [View.canon_cons_unit_zero (S := S512x1024) hz1]
    simp only [View.readCov_unit_zero (S := S512x1024) _ hz1, Cert.LibWholeStore.readCov_cons_unit_zero (S := S512x1024) _ hz1, View.readAt_eq_ld, harg3.read_unread, harg4.read_unread, harg5.read_unread, harg6.read_unread, harg7.read_unread, View.ld_unit_zero (S := S512x1024) hz1, View.ld_unit_zero (S := S1024x1024) hz1, View.ld_unit_zero (S := S512x1024) hz1, View.ld_unit_zero (S := S1x1024) hz1]
  iexists _; isplitr
  swap; · iexact H7
  ipureintro
  refine (View.read_writes_eq_canon _ _ _ (View.cover_of_tiledL _ S512x1024.size (by sl_kernel_rfl))).trans ?_
  sl_unfold_words
  rw [View.canon_cons_unit_zero (S := S512x1024) hz1]
  simp only [View.readCov_unit_zero (S := S512x1024) _ hz1, Cert.LibWholeStore.readCov_cons_unit_zero (S := S512x1024) _ hz1, View.readAt_eq_ld, harg3.read_unread, harg4.read_unread, harg5.read_unread, harg6.read_unread, harg7.read_unread, View.ld_unit_zero (S := S512x1024) hz1, View.ld_unit_zero (S := S1024x1024) hz1, View.ld_unit_zero (S := S512x1024) hz1, View.ld_unit_zero (S := S1x1024) hz1]

end Cert.Kernel.Hand
end
-- ==== Proof.KBRegion1.lean ====
import proofs.«118811_j6030134084248_1_alg».proof.Proof.KBBody1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk1 (c : Dev nD) (t : Fin cfg1.N) : Vec F S512x1024 .f32 := iblk1 V c 0 t
abbrev wblk1 (c : Dev nD) (t : Fin cfg1.N) : Vec F S1024x1024 .f32 := iblk1 V c 1 t
abbrev bblk1 (c : Dev nD) (t : Fin cfg1.N) : Vec F S1x1024 .f32 := iblk1 V c 2 t

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
abbrev scM1 : Memref sig .tc .vmem S512x1024 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem scopedRest1_owns (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ rest1 (F := F) c) := by
  rw [scopedRest1_split]; simp only [scM1, owns_whole]; rfl

theorem hfirst1 : ∀ t : Fin cfg1.N, first1 (grid1.coords t) :=
  (by decide +kernel : ∀ t : Fin grid1.N, first1 (grid1.coords t))
theorem hlast1 : ∀ t : Fin cfg1.N, last1 (grid1.coords t) :=
  (by decide +kernel : ∀ t : Fin grid1.N, last1 (grid1.coords t))
theorem live1_3 : ∀ t : Fin cfg1.N, cfg1.idle 3 (grid1.coords t) = false := by decide +kernel

/-- What the accumulator holds after point `n`: its one step over the zero block. -/
def accAt1 (c : Dev nD) (n : ℕ) (hn : n < cfg1.N) : Vec F S512x1024 .f32 :=
  k1_pay2 (wblk1 V c ⟨n, hn⟩) (xblk1 V c ⟨n, hn⟩) (k1_pay1 (F := F))

/-- Every point is a first K-step, so no point depends on the accumulator left by the one before. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (bblk1 V c t) (accAt1 V c t.val t.isLt)
  Φ _ := Pipeline.scopedRest (Ix := Unit) (Name := ℕ) (U := UR sig nD τ) (Lvl := ℕ) (Val := Elt F) spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (bblk1 V c t) (accAt1 V c t.val t.isLt) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).leavesExact 0 t = owns (c : Thread nD τ) (ms1_0 t) fullShare ((dat1 V c).after 0 t) from rfl, after1_0,
    show (dat1 V c).leavesExact 1 t = owns (c : Thread nD τ) (ms1_1 t) fullShare ((dat1 V c).after 1 t) from rfl, after1_1,
    show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from by
      unfold Dat.leavesExact; rw [live1_3 t], after1_3,
    show accAt1 V c t.val t.isLt = k1_pay2 (wblk1 V c t) (xblk1 V c t) (k1_pay1 (F := F)) from rfl,
    show (dat1 V c).Φ t.succ = (dat1 V c).Φ t.castSucc from rfl,
    show (dat1 V c).Φ t.castSucc = Pipeline.scopedRest (Ix := Unit) (Name := ℕ) (U := UR sig nD τ) (Lvl := ℕ) (Val := Elt F) spec1 c from rfl,
    scopedRest1_owns]
  iintro ⟨⟨HS, Hr⟩, Ho, ⟨%d0, H0⟩, ⟨%d1, H1⟩, ⟨%d2, H2⟩, ⟨%d3, H3⟩⟩
  iapply (run1 c (grid1.coords t) (ms1_0 t) (hs1_0 t) (ms1_1 t) (hs1_1 t) (ms1_2 t) (hs1_2 t) (ms1_3 t) (hs1_3 t) scM1 (Memref.isWhole_whole _)
    (xblk1 V c t) (wblk1 V c t) (bblk1 V c t) (hfirst1 t) (hlast1 t) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hr]
  · isplitl [HS]; · iexists _; iexact HS
    iexact Hr
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) :
    (Pipeline.scopedRest (Ix := Unit) (Name := ℕ) (U := UR sig nD τ) (Lvl := ℕ) (Val := Elt F) spec1 c : sProp 𝕄) ⊢ (dat1 V c).Φ 0 := .rfl

theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := .rfl

end Cert.Kernel.Hand
end
-- ==== Proof.KBBody2.lean ====
import proofs.«118811_j6030134084248_1_alg».proof.Proof.Gen.Kernel.Launch
import proofs.«118811_j6030134084248_1_alg».proof.Proof.Gen.Kernel.Skeleton
import proofs.«118811_j6030134084248_1_alg».proof.Proof.Gen.Kernel.Points
import Idealize.ShloMosaic.Lib.Pipeline.FrameBody
import Idealize.ShloMosaic.Lib.Pipeline.Value
import proofs.«118811_j6030134084248_1_alg».proof.Proof.LibWholeStore
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

abbrev first2 (i : grid2.Coords) : Prop := (Scalar.cmpi .ne (Scalar.extui (Scalar.cmpi .eq (BitVec.ofNat 32 (i 2).val) 0#32)) 0#32) = 1#1
abbrev last2 (i : grid2.Coords) : Prop := k2_cond2 i = 1#1

variable (c : Dev nD) (i : grid2.Coords) (arg3 : Memref sig .tc .vmem S512x1024 .f32) (harg3 : arg3.IsWhole)
  (arg4 : Memref sig .tc .vmem S1024x1024 .f32) (harg4 : arg4.IsWhole) (arg5 : Memref sig .tc .vmem S1x1024 .f32) (harg5 : arg5.IsWhole)
  (arg6 : Memref sig .tc .vmem S512x1024 .f32) (harg6 : arg6.IsWhole) (arg7 : Memref sig .tc .vmem S512x1024 .f32) (harg7 : arg7.IsWhole)
  (x : Vec F S512x1024 .f32) (w : Vec F S1024x1024 .f32) (b : Vec F S1x1024 .f32)
  (o a : Vec F S512x1024 .f32)

set_option maxHeartbeats 1000000 in
/-- One K-step: the accumulator restarts from zero at a first step and gains the block product; at a last step the
    output block is the activation of the accumulator plus the bias row, at any other step it is left as found. -/
theorem run2 (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare
                (if last2 i then k2_pay3 b (k2_pay2 w x (if first2 i then k2_pay1 (F := F) else a)) else o)
            ∗ owns (c : Thread nD τ) arg7 fullShare (k2_pay2 w x (if first2 i then k2_pay1 (F := F) else a))) -∗ K ⟨⟩))
      ⊢ wp frame (wpE (defs₀ (F := F)) Variants.none c none) E (cc2__qdense_kernel i arg3 harg3 arg4 harg4 arg5 harg5 arg6 harg6 arg7 harg7) K := by
  by_cases hc0 : first2 i <;> by_cases hc1 : last2 i <;>
  ( first | rw [if_pos hc0] | rw [if_neg hc0]
    first | rw [if_pos hc1] | rw [if_neg hc1]
    simp only [cc2__qdense_kernel_eq_skeleton]; unfold cc2__qdense_kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro
      first
        | (refine (View.read_writes_eq_canon _ _ _ (View.cover_of_tiledL _ S512x1024.size (by sl_kernel_rfl))).trans ?_
           sl_unfold_words
           rw [View.canon_cons_unit_zero (S := S512x1024) hz2]
           simp only [View.readCov_unit_zero (S := S512x1024) _ hz2, Cert.LibWholeStore.readCov_cons_unit_zero (S := S512x1024) _ hz2, View.readAt_eq_ld, harg3.read_unread, harg4.read_unread, harg5.read_unread, harg6.read_unread, harg7.read_unread, View.ld_unit_zero (S := S512x1024) hz2, View.ld_unit_zero (S := S1024x1024) hz2, View.ld_unit_zero (S := S512x1024) hz2, View.ld_unit_zero (S := S1x1024) hz2])
        | exact harg6.read_unread _
    iexists _; isplitr
    swap; · iexact H7
    ipureintro
    refine (View.read_writes_eq_canon _ _ _ (View.cover_of_tiledL _ S512x1024.size (by sl_kernel_rfl))).trans ?_
    sl_unfold_words
    rw [View.canon_cons_unit_zero (S := S512x1024) hz2]
    simp only [View.readCov_unit_zero (S := S512x1024) _ hz2, Cert.LibWholeStore.readCov_cons_unit_zero (S := S512x1024) _ hz2, View.readAt_eq_ld, harg3.read_unread, harg4.read_unread, harg5.read_unread, harg6.read_unread, harg7.read_unread, View.ld_unit_zero (S := S512x1024) hz2, View.ld_unit_zero (S := S1024x1024) hz2, View.ld_unit_zero (S := S512x1024) hz2, View.ld_unit_zero (S := S1x1024) hz2] )

end Cert.Kernel.Hand
end
-- ==== Proof.KBRegion2.lean ====
import proofs.«118811_j6030134084248_1_alg».proof.Proof.KBBody2

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk2 (c : Dev nD) (t : Fin cfg2.N) : Vec F S512x1024 .f32 := iblk2 V c 0 t
abbrev wblk2 (c : Dev nD) (t : Fin cfg2.N) : Vec F S1024x1024 .f32 := iblk2 V c 1 t
abbrev bblk2 (c : Dev nD) (t : Fin cfg2.N) : Vec F S1x1024 .f32 := iblk2 V c 2 t

abbrev ms2_0 (t : Fin cfg2.N) : Memref sig .tc .vmem S512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
abbrev scM2 : Memref sig .tc .vmem S512x1024 .f32 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

theorem scopedRest2_owns (c : Dev nD) :
    (Pipeline.scopedRest (Ix := Unit) (Name := ℕ) (U := UR sig nD τ) (Lvl := ℕ) (Val := Elt F) spec2 c : sProp 𝕄)
      = iprop((∃ d, owns (c : Thread nD τ) scM2 fullShare d) ∗ rest2 (F := F) c) := by
  rw [scopedRest2_split]; simp only [scM2, owns_whole]; rfl

theorem hfirst2 : ∀ t : Fin cfg2.N, first2 (grid2.coords t) ↔ t.val % 2 = 0 :=
  (by decide +kernel : ∀ t : Fin grid2.N, first2 (grid2.coords t) ↔ t.val % 2 = 0)
theorem hlast2 : ∀ t : Fin cfg2.N, last2 (grid2.coords t) ↔ t.val % 2 = 1 :=
  (by decide +kernel : ∀ t : Fin grid2.N, last2 (grid2.coords t) ↔ t.val % 2 = 1)
theorem live2_3 : ∀ t : Fin cfg2.N, last2 (grid2.coords t) → cfg2.idle 3 (grid2.coords t) = false := by decide +kernel
theorem idle2_3 : ∀ t : Fin cfg2.N, ¬last2 (grid2.coords t) → cfg2.idle 3 (grid2.coords t) = true := by decide +kernel
theorem noFlush2_3 : ∀ t : Fin cfg2.N, ¬last2 (grid2.coords t) → (cfg2.win 3).flush t = false := by decide +kernel

/-- What the accumulator holds after point `n`: the step's payload over zero at a first K-step, over the point before otherwise. -/
def accAt2 (c : Dev nD) : (n : ℕ) → n < cfg2.N → Vec F S512x1024 .f32
  | 0, hn => k2_pay2 (wblk2 V c ⟨0, hn⟩) (xblk2 V c ⟨0, hn⟩) (k2_pay1 (F := F))
  | n + 1, hn =>
    if (n + 1) % 2 = 0 then k2_pay2 (wblk2 V c ⟨n + 1, hn⟩) (xblk2 V c ⟨n + 1, hn⟩) (k2_pay1 (F := F))
    else k2_pay2 (wblk2 V c ⟨n + 1, hn⟩) (xblk2 V c ⟨n + 1, hn⟩) (accAt2 c n (Nat.lt_of_succ_lt hn))

theorem accAt2_first (c : Dev nD) (t : Fin cfg2.N) (h : t.val % 2 = 0) :
    accAt2 V c t.val t.isLt = k2_pay2 (wblk2 V c t) (xblk2 V c t) (k2_pay1 (F := F)) := by
  obtain ⟨n, hn⟩ := t
  cases n with
  | zero => rfl
  | succ n => exact (if_pos h)

theorem accAt2_next (c : Dev nD) (t : Fin cfg2.N) (h : ¬t.val % 2 = 0) :
    accAt2 V c t.val t.isLt = k2_pay2 (wblk2 V c t) (xblk2 V c t) (accAt2 V c (t.val - 1) (Nat.lt_of_le_of_lt (Nat.sub_le _ _) t.isLt)) := by
  obtain ⟨n, hn⟩ := t
  cases n with
  | zero => exact absurd (Nat.zero_mod _) h
  | succ n => exact (if_neg h)

/-- After point `n - 1` the accumulator is `accAt (n - 1)`; before the first point it is anything. -/
def Phi2 (c : Dev nD) (n : ℕ) (h : n ≤ cfg2.N) : sProp 𝕄 :=
  iprop(∃ a, ⌜∀ hz : n ≠ 0, a = accAt2 V c (n - 1) (by omega)⌝ ∗ owns (c : Thread nD τ) scM2 fullShare a ∗ rest2 (F := F) c)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (bblk2 V c t) (accAt2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (bblk2 V c t) (accAt2 V c t.val t.isLt) := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- The step's payload over what the invariant hands over is this point's `accAt`. -/
theorem acc2_step (c : Dev nD) (t : Fin cfg2.N) (a : Vec F S512x1024 .f32)
    (ha : ∀ hz : t.val ≠ 0, a = accAt2 V c (t.val - 1) (Nat.lt_of_le_of_lt (Nat.sub_le _ _) t.isLt)) :
    k2_pay2 (wblk2 V c t) (xblk2 V c t) (if first2 (grid2.coords t) then k2_pay1 (F := F) else a) = accAt2 V c t.val t.isLt := by
  by_cases h0 : t.val % 2 = 0
  · rw [if_pos ((hfirst2 t).mpr h0), accAt2_first V c t h0]
  · rw [if_neg (fun h => h0 ((hfirst2 t).mp h)), accAt2_next V c t h0, ha (fun e => h0 (by rw [e]))]

/-- At a last K-step the output block is the activation of the finished accumulator plus the bias row; at any other it is unchanged. -/
theorem leaves2_3 (c : Dev nD) (t : Fin cfg2.N) (d) :
    owns (c : Thread nD τ) (ms2_3 t) fullShare
        (if last2 (grid2.coords t) then k2_pay3 (bblk2 V c t) (accAt2 V c t.val t.isLt) else (dat2 V c).before 3 t d)
      ⊢ (dat2 V c).leavesExact 3 t := by
  by_cases hl : last2 (grid2.coords t)
  · rw [if_pos hl, show (dat2 V c).leavesExact 3 t = owns (c : Thread nD τ) (ms2_3 t) fullShare ((dat2 V c).after 3 t) from by
      unfold Dat.leavesExact; rw [live2_3 t hl], after2_3]
  · rw [if_neg hl, Dat.leavesExact_idle (dat2 V c) 3 t (idle2_3 t hl) (noFlush2_3 t hl)]
    iintro H; iexists d; iexact H

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).leavesExact 0 t = owns (c : Thread nD τ) (ms2_0 t) fullShare ((dat2 V c).after 0 t) from rfl, after2_0,
    show (dat2 V c).leavesExact 1 t = owns (c : Thread nD τ) (ms2_1 t) fullShare ((dat2 V c).after 1 t) from rfl, after2_1,
    show (dat2 V c).leavesExact 2 t = owns (c : Thread nD τ) (ms2_2 t) fullShare ((dat2 V c).after 2 t) from rfl, after2_2]
  rw [show (dat2 V c).Φ t.succ = Phi2 V c (t.val + 1) t.isLt from rfl,
    show (dat2 V c).Φ t.castSucc = Phi2 V c t.val (Nat.le_of_lt t.isLt) from by dsimp only [dat2]; simp only [Fin.coe_castSucc]]
  unfold Phi2
  iintro ⟨⟨%a, %ha, HS, Hr⟩, Ho, ⟨%d0, H0⟩, ⟨%d1, H1⟩, ⟨%d2, H2⟩, ⟨%d3, H3⟩⟩
  iapply (run2 c (grid2.coords t) (ms2_0 t) (hs2_0 t) (ms2_1 t) (hs2_1 t) (ms2_2 t) (hs2_2 t) (ms2_3 t) (hs2_3 t) scM2 (Memref.isWhole_whole _)
    (xblk2 V c t) (wblk2 V c t) (bblk2 V c t) ((dat2 V c).before 3 t d3) a Set.univ _)
  isplitl [H0]; · iexact H0
  isplitl [H1]; · iexact H1
  isplitl [H2]; · iexact H2
  isplitl [H3]; · iexact H3
  isplitl [HS]; · iexact HS
  rw [acc2_step V c t a ha]
  iintro ⟨H0, H1, H2, H3, HS⟩
  isplitl [HS Hr]
  · iexists (accAt2 V c t.val t.isLt); isplitr; · ipureintro; exact fun _ => rfl
    isplitl [HS]; · iexact HS
    iexact Hr
  isplitl [Ho]; · iexact Ho
  isplitl [H0]; · iexact H0
  isplitl [H1]; · iexact H1
  isplitl [H2]; · iexact H2
  iapply (leaves2_3 V c t d3); iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) :
    (Pipeline.scopedRest (Ix := Unit) (Name := ℕ) (U := UR sig nD τ) (Lvl := ℕ) (Val := Elt F) spec2 c : sProp 𝕄) ⊢ (dat2 V c).Φ 0 := by
  rw [show (dat2 V c).Φ 0 = Phi2 V c 0 (Nat.zero_le _) from rfl, scopedRest2_owns]
  unfold Phi2
  iintro ⟨⟨%d, HS⟩, Hr⟩
  iexists d; isplitr; · ipureintro; exact fun hz => absurd rfl hz
  isplitl [HS]; · iexact HS
  iexact Hr

theorem hout2 (c : Dev nD) :
    (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = Phi2 V c (Fin.last cfg2.N).val (Nat.le_of_lt_succ (Fin.last cfg2.N).isLt) from rfl, scopedRest2_owns]
  unfold Phi2
  iintro ⟨%a, -, HS, Hr⟩
  isplitl [HS]; · iexists a; iexact HS
  iexact Hr

end Cert.Kernel.Hand
end
-- ==== Proof.KBBody3.lean ====
import proofs.«118811_j6030134084248_1_alg».proof.Proof.Gen.Kernel.Launch
import proofs.«118811_j6030134084248_1_alg».proof.Proof.Gen.Kernel.Skeleton
import proofs.«118811_j6030134084248_1_alg».proof.Proof.Gen.Kernel.Points
import Idealize.ShloMosaic.Lib.Pipeline.FrameBody
import Idealize.ShloMosaic.Lib.Pipeline.Value
import proofs.«118811_j6030134084248_1_alg».proof.Proof.LibWholeStore
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0] : Fin 2 → Nat) = fun _ => 0 := funext fun a => by fin_cases a <;> rfl

abbrev first3 (i : grid3.Coords) : Prop := (Scalar.cmpi .ne (Scalar.extui (Scalar.cmpi .eq (BitVec.ofNat 32 (i 2).val) 0#32)) 0#32) = 1#1
abbrev last3 (i : grid3.Coords) : Prop := k3_cond2 i = 1#1

variable (c : Dev nD) (i : grid3.Coords) (arg3 : Memref sig .tc .vmem S512x1024 .f32) (harg3 : arg3.IsWhole)
  (arg4 : Memref sig .tc .vmem S1024x1024 .f32) (harg4 : arg4.IsWhole) (arg5 : Memref sig .tc .vmem S1x1024 .f32) (harg5 : arg5.IsWhole)
  (arg6 : Memref sig .tc .vmem S512x1024 .f32) (harg6 : arg6.IsWhole) (arg7 : Memref sig .tc .vmem S512x1024 .f32) (harg7 : arg7.IsWhole)
  (x : Vec F S512x1024 .f32) (w : Vec F S1024x1024 .f32) (b : Vec F S1x1024 .f32)
  (o a : Vec F S512x1024 .f32)

set_option maxHeartbeats 1000000 in
/-- One K-step: the accumulator restarts from zero at a first step and gains the block product; at a last step the
    output block is the activation of the accumulator plus the bias row, at any other step it is left as found. -/
theorem run3 (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare
                (if last3 i then k3_pay3 b (k3_pay2 w x (if first3 i then k3_pay1 (F := F) else a)) else o)
            ∗ owns (c : Thread nD τ) arg7 fullShare (k3_pay2 w x (if first3 i then k3_pay1 (F := F) else a))) -∗ K ⟨⟩))
      ⊢ wp frame (wpE (defs₀ (F := F)) Variants.none c none) E (cc3__qdense_kernel i arg3 harg3 arg4 harg4 arg5 harg5 arg6 harg6 arg7 harg7) K := by
  by_cases hc0 : first3 i <;> by_cases hc1 : last3 i <;>
  ( first | rw [if_pos hc0] | rw [if_neg hc0]
    first | rw [if_pos hc1] | rw [if_neg hc1]
    simp only [cc3__qdense_kernel_eq_skeleton]; unfold cc3__qdense_kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro
      first
        | (refine (View.read_writes_eq_canon _ _ _ (View.cover_of_tiledL _ S512x1024.size (by sl_kernel_rfl))).trans ?_
           sl_unfold_words
           rw [View.canon_cons_unit_zero (S := S512x1024) hz3]
           simp only [View.readCov_unit_zero (S := S512x1024) _ hz3, Cert.LibWholeStore.readCov_cons_unit_zero (S := S512x1024) _ hz3, View.readAt_eq_ld, harg3.read_unread, harg4.read_unread, harg5.read_unread, harg6.read_unread, harg7.read_unread, View.ld_unit_zero (S := S512x1024) hz3, View.ld_unit_zero (S := S1024x1024) hz3, View.ld_unit_zero (S := S512x1024) hz3, View.ld_unit_zero (S := S1x1024) hz3])
        | exact harg6.read_unread _
    iexists _; isplitr
    swap; · iexact H7
    ipureintro
    refine (View.read_writes_eq_canon _ _ _ (View.cover_of_tiledL _ S512x1024.size (by sl_kernel_rfl))).trans ?_
    sl_unfold_words
    rw [View.canon_cons_unit_zero (S := S512x1024) hz3]
    simp only [View.readCov_unit_zero (S := S512x1024) _ hz3, Cert.LibWholeStore.readCov_cons_unit_zero (S := S512x1024) _ hz3, View.readAt_eq_ld, harg3.read_unread, harg4.read_unread, harg5.read_unread, harg6.read_unread, harg7.read_unread, View.ld_unit_zero (S := S512x1024) hz3, View.ld_unit_zero (S := S1024x1024) hz3, View.ld_unit_zero (S := S512x1024) hz3, View.ld_unit_zero (S := S1x1024) hz3] )

end Cert.Kernel.Hand
end
-- ==== Proof.KBRegion3.lean ====
import proofs.«118811_j6030134084248_1_alg».proof.Proof.KBBody3

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xblk3 (c : Dev nD) (t : Fin cfg3.N) : Vec F S512x1024 .f32 := iblk3 V c 0 t
abbrev wblk3 (c : Dev nD) (t : Fin cfg3.N) : Vec F S1024x1024 .f32 := iblk3 V c 1 t
abbrev bblk3 (c : Dev nD) (t : Fin cfg3.N) : Vec F S1x1024 .f32 := iblk3 V c 2 t

abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x1024 .f32 := win3_3.stage (cfg3.slots t 3)
abbrev hs3_3 (t : Fin cfg3.N) : (ms3_3 t).IsWhole := hstage3_3 ((cfg3.slots t 3).cast nbuf3_3)
abbrev scM3 : Memref sig .tc .vmem S512x1024 .f32 := Memref.whole cc3_scratch0

abbrev rest3 (c : Dev nD) : sProp 𝕄 :=
  Pipeline.scopedRestBut (Ix := Unit) (Name := ℕ) (U := UR sig nD τ) (Lvl := ℕ) (Val := Elt F) spec3 c [cc3_scratch0]

theorem scopedRest3_owns (c : Dev nD) :
    (Pipeline.scopedRest (Ix := Unit) (Name := ℕ) (U := UR sig nD τ) (Lvl := ℕ) (Val := Elt F) spec3 c : sProp 𝕄)
      = iprop((∃ d, owns (c : Thread nD τ) scM3 fullShare d) ∗ rest3 (F := F) c) := by
  rw [scopedRest3_split]; simp only [scM3, owns_whole]; rfl

theorem hfirst3 : ∀ t : Fin cfg3.N, first3 (grid3.coords t) ↔ t.val % 4 = 0 :=
  (by decide +kernel : ∀ t : Fin grid3.N, first3 (grid3.coords t) ↔ t.val % 4 = 0)
theorem hlast3 : ∀ t : Fin cfg3.N, last3 (grid3.coords t) ↔ t.val % 4 = 3 :=
  (by decide +kernel : ∀ t : Fin grid3.N, last3 (grid3.coords t) ↔ t.val % 4 = 3)
theorem live3_3 : ∀ t : Fin cfg3.N, last3 (grid3.coords t) → cfg3.idle 3 (grid3.coords t) = false := by decide +kernel
theorem idle3_3 : ∀ t : Fin cfg3.N, ¬last3 (grid3.coords t) → cfg3.idle 3 (grid3.coords t) = true := by decide +kernel
theorem noFlush3_3 : ∀ t : Fin cfg3.N, ¬last3 (grid3.coords t) → (cfg3.win 3).flush t = false := by decide +kernel

/-- What the accumulator holds after point `n`: the step's payload over zero at a first K-step, over the point before otherwise. -/
def accAt3 (c : Dev nD) : (n : ℕ) → n < cfg3.N → Vec F S512x1024 .f32
  | 0, hn => k3_pay2 (wblk3 V c ⟨0, hn⟩) (xblk3 V c ⟨0, hn⟩) (k3_pay1 (F := F))
  | n + 1, hn =>
    if (n + 1) % 4 = 0 then k3_pay2 (wblk3 V c ⟨n + 1, hn⟩) (xblk3 V c ⟨n + 1, hn⟩) (k3_pay1 (F := F))
    else k3_pay2 (wblk3 V c ⟨n + 1, hn⟩) (xblk3 V c ⟨n + 1, hn⟩) (accAt3 c n (Nat.lt_of_succ_lt hn))

theorem accAt3_first (c : Dev nD) (t : Fin cfg3.N) (h : t.val % 4 = 0) :
    accAt3 V c t.val t.isLt = k3_pay2 (wblk3 V c t) (xblk3 V c t) (k3_pay1 (F := F)) := by
  obtain ⟨n, hn⟩ := t
  cases n with
  | zero => rfl
  | succ n => exact (if_pos h)

theorem accAt3_next (c : Dev nD) (t : Fin cfg3.N) (h : ¬t.val % 4 = 0) :
    accAt3 V c t.val t.isLt = k3_pay2 (wblk3 V c t) (xblk3 V c t) (accAt3 V c (t.val - 1) (Nat.lt_of_le_of_lt (Nat.sub_le _ _) t.isLt)) := by
  obtain ⟨n, hn⟩ := t
  cases n with
  | zero => exact absurd (Nat.zero_mod _) h
  | succ n => exact (if_neg h)

/-- After point `n - 1` the accumulator is `accAt (n - 1)`; before the first point it is anything. -/
def Phi3 (c : Dev nD) (n : ℕ) (h : n ≤ cfg3.N) : sProp 𝕄 :=
  iprop(∃ a, ⌜∀ hz : n ≠ 0, a = accAt3 V c (n - 1) (by omega)⌝ ∗ owns (c : Thread nD τ) scM3 fullShare a ∗ rest3 (F := F) c)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (bblk3 V c t) (accAt3 V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (bblk3 V c t) (accAt3 V c t.val t.isLt) := by dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

/-- The step's payload over what the invariant hands over is this point's `accAt`. -/
theorem acc3_step (c : Dev nD) (t : Fin cfg3.N) (a : Vec F S512x1024 .f32)
    (ha : ∀ hz : t.val ≠ 0, a = accAt3 V c (t.val - 1) (Nat.lt_of_le_of_lt (Nat.sub_le _ _) t.isLt)) :
    k3_pay2 (wblk3 V c t) (xblk3 V c t) (if first3 (grid3.coords t) then k3_pay1 (F := F) else a) = accAt3 V c t.val t.isLt := by
  by_cases h0 : t.val % 4 = 0
  · rw [if_pos ((hfirst3 t).mpr h0), accAt3_first V c t h0]
  · rw [if_neg (fun h => h0 ((hfirst3 t).mp h)), accAt3_next V c t h0, ha (fun e => h0 (by rw [e]))]

/-- At a last K-step the output block is the activation of the finished accumulator plus the bias row; at any other it is unchanged. -/
theorem leaves3_3 (c : Dev nD) (t : Fin cfg3.N) (d) :
    owns (c : Thread nD τ) (ms3_3 t) fullShare
        (if last3 (grid3.coords t) then k3_pay3 (bblk3 V c t) (accAt3 V c t.val t.isLt) else (dat3 V c).before 3 t d)
      ⊢ (dat3 V c).leavesExact 3 t := by
  by_cases hl : last3 (grid3.coords t)
  · rw [if_pos hl, show (dat3 V c).leavesExact 3 t = owns (c : Thread nD τ) (ms3_3 t) fullShare ((dat3 V c).after 3 t) from by
      unfold Dat.leavesExact; rw [live3_3 t hl], after3_3]
  · rw [if_neg hl, Dat.leavesExact_idle (dat3 V c) 3 t (idle3_3 t hl) (noFlush3_3 t hl)]
    iintro H; iexists d; iexact H

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).leavesExact 0 t = owns (c : Thread nD τ) (ms3_0 t) fullShare ((dat3 V c).after 0 t) from rfl, after3_0,
    show (dat3 V c).leavesExact 1 t = owns (c : Thread nD τ) (ms3_1 t) fullShare ((dat3 V c).after 1 t) from rfl, after3_1,
    show (dat3 V c).leavesExact 2 t = owns (c : Thread nD τ) (ms3_2 t) fullShare ((dat3 V c).after 2 t) from rfl, after3_2]
  rw [show (dat3 V c).Φ t.succ = Phi3 V c (t.val + 1) t.isLt from rfl,
    show (dat3 V c).Φ t.castSucc = Phi3 V c t.val (Nat.le_of_lt t.isLt) from by dsimp only [dat3]; simp only [Fin.coe_castSucc]]
  unfold Phi3
  iintro ⟨⟨%a, %ha, HS, Hr⟩, Ho, ⟨%d0, H0⟩, ⟨%d1, H1⟩, ⟨%d2, H2⟩, ⟨%d3, H3⟩⟩
  iapply (run3 c (grid3.coords t) (ms3_0 t) (hs3_0 t) (ms3_1 t) (hs3_1 t) (ms3_2 t) (hs3_2 t) (ms3_3 t) (hs3_3 t) scM3 (Memref.isWhole_whole _)
    (xblk3 V c t) (wblk3 V c t) (bblk3 V c t) ((dat3 V c).before 3 t d3) a Set.univ _)
  isplitl [H0]; · iexact H0
  isplitl [H1]; · iexact H1
  isplitl [H2]; · iexact H2
  isplitl [H3]; · iexact H3
  isplitl [HS]; · iexact HS
  rw [acc3_step V c t a ha]
  iintro ⟨H0, H1, H2, H3, HS⟩
  isplitl [HS Hr]
  · iexists (accAt3 V c t.val t.isLt); isplitr; · ipureintro; exact fun _ => rfl
    isplitl [HS]; · iexact HS
    iexact Hr
  isplitl [Ho]; · iexact Ho
  isplitl [H0]; · iexact H0
  isplitl [H1]; · iexact H1
  isplitl [H2]; · iexact H2
  iapply (leaves3_3 V c t d3); iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) :
    (Pipeline.scopedRest (Ix := Unit) (Name := ℕ) (U := UR sig nD τ) (Lvl := ℕ) (Val := Elt F) spec3 c : sProp 𝕄) ⊢ (dat3 V c).Φ 0 := by
  rw [show (dat3 V c).Φ 0 = Phi3 V c 0 (Nat.zero_le _) from rfl, scopedRest3_owns]
  unfold Phi3
  iintro ⟨⟨%d, HS⟩, Hr⟩
  iexists d; isplitr; · ipureintro; exact fun hz => absurd rfl hz
  isplitl [HS]; · iexact HS
  iexact Hr

theorem hout3 (c : Dev nD) :
    (dat3 V c).Φ (Fin.last cfg3.N) ⊢ (Pipeline.scopedRest (Ix := Unit) (Name := ℕ) (U := UR sig nD τ) (Lvl := ℕ) (Val := Elt F) spec3 c : sProp 𝕄) := by
  rw [show (dat3 V c).Φ (Fin.last cfg3.N) = Phi3 V c (Fin.last cfg3.N).val (Nat.le_of_lt_succ (Fin.last cfg3.N).isLt) from rfl, scopedRest3_owns]
  unfold Phi3
  iintro ⟨%a, -, HS, Hr⟩
  isplitl [HS]; · iexists a; iexact HS
  iexact Hr

end Cert.Kernel.Hand
end
-- ==== Proof.LibRegions.lean ====
import Idealize.ShloMosaic.Lib.Pipeline.RegionsLoop
import Idealize.ShloMosaic.Lib.Pipeline.FrameSuffix

noncomputable section

namespace Cert.LibRegions

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {nD : Nat} {τ : Topo} {sig : RefSig} {Λ₀ : Idealize.SL.Sem.Labels} {Val : EltTy → Type} {U : Type} [URA U]

local notation "𝕄" => MT nD τ sig Unit Val ℕ U ℕ

section Leave

variable {cfg : Cfg sig Λ₀} (c : Dev nD) (dat : Dat τ Val Unit ℕ U ℕ cfg c) (W : Valuation τ sig Val)

/-- The contents a region entered at `W` ends with: its arrays as last written, every other buffer as in `W`. -/
def leave : Valuation τ sig Val := Pipeline.withArrays cfg.spec c W fun w => dat.arrAt w cfg.N

variable (hinj : Function.Injective (Pipeline.arrRef cfg.spec))
include hinj

theorem leave_arr (w : Fin cfg.W) : leave c dat W (Proc.devRef .tc (Pipeline.arrRef cfg.spec w)) = dat.arrAt w cfg.N :=
  Pipeline.withArrays_arr _ hinj c _ _ w

/-- If every window but `o` is an input whose array is read off `W`, only `o`'s array differs from `W`: an input array keeps its entry contents. -/
theorem leave_keep (hA : ∀ w, dat.A w = W (Proc.devRef .tc (Pipeline.arrRef cfg.spec w))) (o : Fin cfg.W)
    (hi : ∀ w, w ≠ o → (cfg.win w).isOut = false) (b : Ref sig .tc) (hb : b ≠ Pipeline.arrRef cfg.spec o) :
    leave c dat W b = W b := by
  by_cases h : ∃ w, Pipeline.arrRef cfg.spec w = b
  · obtain ⟨w, rfl⟩ := h
    exact (leave_arr c dat W hinj w).trans ((dat.arrAt_in w (hi w fun e => hb (e ▸ rfl)) _).trans (hA w))
  · exact Pipeline.withArrays_of_ne _ c _ _ b fun w e => h ⟨w, e⟩

end Leave

/-- A family of valuations restricted to the references `Ref sig .tc`. -/
abbrev tcVal (W : Dev nD → Valuation τ sig Val) : (c : Dev nD) → (b : Ref sig .tc) → Buf Val ((c : Thread nD τ).loc b) := fun c b => W c b

abbrev R (c : Dev nD) : sProp 𝕄 := iprop((∃ r, prngReg c r) ∗ ∃ W, owes (c : Thread nD τ) (0 : CellTallies nD τ sig Unit) W)
abbrev T (W : Dev nD → Valuation τ sig Val) (c : Dev nD) : sProp 𝕄 := iprop(StableHlo.held (c : Thread nD τ) (Pipeline.ucRefs τ sig) (W c) ∗ R c)

variable {P : Type} [Fintype P] {cfgs : P → Cfg sig Λ₀} {defs₀ : Defs nD τ sig Val Λ₀} {𝒱₀ : Variants}
  {L : GSem nD τ sig → Finset Unit} {lv : GSem nD τ sig → Unit → ℕ}

abbrev hseg (ops : List (HloOp τ sig Val)) (hsub : ops.Forall fun op => op.bufs ⊆ StableHlo.tcRefs τ sig)
    (hfresh : ops.Forall fun op => op.fresh = ∅) (W : Dev nD → Valuation τ sig Val) :
    Pipeline.HostSeg (Name := ℕ) (U := U) (fun q => (cfgs q).toPCfg (Val := Val)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

variable (pd : (p : P) → (c : Dev nD) → Dat τ Val Unit ℕ U ℕ (Pipeline.pin (fun q => (cfgs q).toPCfg (Val := Val)) (fun q => (cfgs q).toPCfg_adm) p) c)

/-- Region `p` as one step of the run: from the contents `W` to `leave … W`. -/
def reg (p : P) (kit : Pipeline.LaunchFacts (nD := nD) (τ := τ) cfgs p) (W : Dev nD → Valuation τ sig Val)
    (hb : ∀ c, BodyObligation (pd p c) defs₀ 𝒱₀ () Set.univ)
    (hi : ∀ c, (Pipeline.scopedRest (cfgs p).spec c : sProp 𝕄) ⊢ (pd p c).Φ 0)
    (hx : ∀ c, (pd p c).Φ (Fin.last (cfgs p).N) ⊢ (Pipeline.scopedRest (cfgs p).spec c : sProp 𝕄))
    (hA : ∀ c w, (pd p c).A w = W c (Proc.devRef .tc (Pipeline.arrRef (cfgs p).spec w)))
    (hq : ∀ c w, (pd p c).q w = fullShare := by exact fun _ _ => rfl) (ho : ∀ c t, (pd p c).owed t = 0 := by exact fun _ _ => rfl)
    (hr : ∀ c t, (pd p c).recorded t = Set.univ := by exact fun _ _ => rfl) :
    Pipeline.RegionSeg (fun q => (cfgs q).toPCfg) (fun q => (cfgs q).toPCfg_adm) pd () defs₀ 𝒱₀ L lv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ L lv p ho
  pre := T W
  post := T fun c => leave c (pd p c) (W c)
  X _ := BI.emp
  Y _ := BI.emp
  Z c := iprop(Pipeline.unscopedRest (cfgs p).spec c (tcVal W c) ∗ ∃ r, prngReg c r)
  hentry c := by
    rw [Pipeline.ownSems0_none]
    have hsplit := Pipeline.arrays_of_unscopedBufs (fun q => (cfgs q).toPCfg) (fun q => (cfgs q).toPCfg_adm) pd kit.win kit.arr_whole c
      ((pd p c).share_full (hq c)) (tcVal W c) (hA c)
    rw [Pipeline.unscopedBufs_held] at hsplit
    unfold Pipeline.Dat.owesAt Pipeline.owesWithin
    rw [ho c 0]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%O, HO⟩; iexists O; isplitr; · ipureintro; exact fun _ _ => Or.inl (hr c 0 ▸ trivial)
      iexact HO
    isplitr; · iempintro
    isplitl [Hrest]; · iexact Hrest
    iexact Hp
  hin c := (sep_elim_right.trans sep_elim_right).trans (hi c)
  hout c := by rw [Pipeline.ownSems0_none]; exact (hx c).trans (emp_sep_intro.trans (BI.sep_mono_r emp_sep_intro))
  hexit c := by
    have hjoin := Pipeline.unscopedBufs_of_arrays (fun q => (cfgs q).toPCfg) (fun q => (cfgs q).toPCfg_adm) kit.win kit.arr_whole c pd ((pd p c).share_full (hq c)) (tcVal W c) (fun b => leave c (pd p c) (W c) b) ((pd p c).arrAt · (cfgs p).N)
      (fun w => (leave_arr c _ _ kit.win.arr_inj w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin
    rw [ho c]
    iintro ⟨Ha, HO, -, ⟨Hrest, Hp⟩⟩
    imodintro
    isplitl [Ha Hrest]
    · iapply hjoin; isplitl [Ha] <;> iassumption
    isplitl [Hp]; · iexact Hp
    icases HO with ⟨%O, -, HO⟩; iexists O; iexact HO

end Cert.LibRegions
end
-- ==== Proof.KBRun.lean ====
import proofs.«118811_j6030134084248_1_alg».proof.Proof.Gen.Kernel.Regions
import proofs.«118811_j6030134084248_1_alg».proof.Proof.KBRegion0
import proofs.«118811_j6030134084248_1_alg».proof.Proof.KBRegion1
import proofs.«118811_j6030134084248_1_alg».proof.Proof.KBRegion2
import proofs.«118811_j6030134084248_1_alg».proof.Proof.KBRegion3
import proofs.«118811_j6030134084248_1_alg».proof.Proof.LibRegions

noncomputable section

namespace Cert.Kernel.Hand

open Cert.Kernel Cert.Kernel.Gen Cert.LibRegions
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 := tcVal (W1 m ρ)
def W2 (c : Dev nD) : Valuation τ sig (Elt F) := leave c (dat0 (V1 m ρ) c) (W1 m ρ c)
abbrev W3 : Dev nD → Valuation τ sig (Elt F) := fun c => StableHlo.after hostOps1 (W2 m ρ c)
abbrev V3 := tcVal (W3 m ρ)
def W4 (c : Dev nD) : Valuation τ sig (Elt F) := leave c (dat1 (V3 m ρ) c) (W3 m ρ c)
abbrev W5 : Dev nD → Valuation τ sig (Elt F) := fun c => StableHlo.after hostOps2 (W4 m ρ c)
abbrev V5 := tcVal (W5 m ρ)
def W6 (c : Dev nD) : Valuation τ sig (Elt F) := leave c (dat2 (V5 m ρ) c) (W5 m ρ c)
abbrev W7 : Dev nD → Valuation τ sig (Elt F) := fun c => StableHlo.after hostOps3 (W6 m ρ c)
abbrev V7 := tcVal (W7 m ρ)
def W8 (c : Dev nD) : Valuation τ sig (Elt F) := leave c (dat3 (V7 m ρ) c) (W7 m ρ c)

theorem W2_arr (c : Dev nD) (w : Fin cfg0.W) :
    W2 m ρ c (Proc.devRef .tc (Pipeline.arrRef spec0 w)) = (dat0 (V1 m ρ) c).arrAt w cfg0.N := leave_arr c _ _ launch0.win.arr_inj w
theorem W4_arr (c : Dev nD) (w : Fin cfg1.W) :
    W4 m ρ c (Proc.devRef .tc (Pipeline.arrRef spec1 w)) = (dat1 (V3 m ρ) c).arrAt w cfg1.N := leave_arr c _ _ launch1.win.arr_inj w
theorem W6_arr (c : Dev nD) (w : Fin cfg2.W) :
    W6 m ρ c (Proc.devRef .tc (Pipeline.arrRef spec2 w)) = (dat2 (V5 m ρ) c).arrAt w cfg2.N := leave_arr c _ _ launch2.win.arr_inj w
theorem W8_arr (c : Dev nD) (w : Fin cfg3.W) :
    W8 m ρ c (Proc.devRef .tc (Pipeline.arrRef spec3 w)) = (dat3 (V7 m ρ) c).arrAt w cfg3.N := leave_arr c _ _ launch3.win.arr_inj w

theorem W1_keep (c : Dev nD) (b : Ref sig .tc) (hb : b ∉ hostOps0_W) : W1 m ρ c b = W0 m ρ c b :=
  StableHlo.after_of_writes_sub hostOps0 _ hostOps0_writes hb
theorem W2_keep (c : Dev nD) (b : Ref sig .tc) (hb : b ≠ main_v1) : W2 m ρ c b = W1 m ρ c b :=
  leave_keep c _ _ launch0.win.arr_inj (A_eq0 _ c) 3 (by decide) b hb
theorem W3_keep (c : Dev nD) (b : Ref sig .tc) (hb : b ∉ hostOps1_W) : W3 m ρ c b = W2 m ρ c b :=
  StableHlo.after_of_writes_sub hostOps1 _ hostOps1_writes hb
theorem W4_keep (c : Dev nD) (b : Ref sig .tc) (hb : b ≠ main_v3) : W4 m ρ c b = W3 m ρ c b :=
  leave_keep c _ _ launch1.win.arr_inj (A_eq1 _ c) 3 (by decide) b hb
theorem W5_keep (c : Dev nD) (b : Ref sig .tc) (hb : b ∉ hostOps2_W) : W5 m ρ c b = W4 m ρ c b :=
  StableHlo.after_of_writes_sub hostOps2 _ hostOps2_writes hb
theorem W6_keep (c : Dev nD) (b : Ref sig .tc) (hb : b ≠ main_v5) : W6 m ρ c b = W5 m ρ c b :=
  leave_keep c _ _ launch2.win.arr_inj (A_eq2 _ c) 3 (by decide) b hb
theorem W7_keep (c : Dev nD) (b : Ref sig .tc) (hb : b ∉ hostOps3_W) : W7 m ρ c b = W6 m ρ c b :=
  StableHlo.after_of_writes_sub hostOps3 _ hostOps3_writes hb
theorem W8_keep (c : Dev nD) (b : Ref sig .tc) (hb : b ≠ main_v7) : W8 m ρ c b = W7 m ρ c b :=
  leave_keep c _ _ launch3.win.arr_inj (A_eq3 _ c) 3 (by decide) b hb

/-- The eight `keep` facts composed: a buffer that is no segment's result still has its launch contents in `W8`. -/
theorem W8_unwritten (c : Dev nD) (b : Ref sig .tc)
    (hb : b ∉ ([main_v0, main_v1, main_v2, main_v3, main_v4, main_v5, main_v6, main_v7] : List (Ref sig .tc))) :
    W8 m ρ c b = m ((c : Thread nD τ).loc b) := by
  simp only [List.mem_cons, List.mem_nil_iff, or_false, not_or] at hb
  obtain ⟨h0, h1, h2, h3, h4, h5, h6, h7⟩ := hb
  exact (W8_keep m ρ c b h7).trans <| (W7_keep m ρ c b (List.mem_singleton.not.2 h6)).trans <| (W6_keep m ρ c b h5).trans <|
    (W5_keep m ρ c b (List.mem_singleton.not.2 h4)).trans <| (W4_keep m ρ c b h3).trans <|
    (W3_keep m ρ c b (List.mem_singleton.not.2 h2)).trans <| (W2_keep m ρ c b h1).trans <| W1_keep m ρ c b (List.mem_singleton.not.2 h0)

def pdats : (p : Fin 4) → (c : Dev nD) → Dat τ (Elt F) Unit ℕ (UR sig nD τ) ℕ (Pipeline.pin (pcfgs (F := F)) adm p) c
  | ⟨0, _⟩ => dat0 (V1 m ρ)
  | ⟨1, _⟩ => dat1 (V3 m ρ)
  | ⟨2, _⟩ => dat2 (V5 m ρ)
  | ⟨3, _⟩ => dat3 (V7 m ρ)
abbrev 𝒱₀ : Variants := Variants.none
abbrev L : GSem nD τ sig → Finset Unit := fun _ => ∅
abbrev lv : GSem nD τ sig → Unit → ℕ := fun _ _ => 0
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev segs : List (Pipeline.Seg (pcfgs (F := F)) adm (pdats m ρ) () defs₀ 𝒱₀ L lv) :=
  [ .host (hseg hostOps0 hostOps0_sub hostOps0_fresh (W0 m ρ)),
    .region (reg (pdats m ρ) 0 launch0 (W1 m ρ) (body_obligation0 _) (hin0 _) (hout0 _) (A_eq0 _)),
    .host (hseg hostOps1 hostOps1_sub hostOps1_fresh (W2 m ρ)),
    .region (reg (pdats m ρ) 1 launch1 (W3 m ρ) (body_obligation1 _) (hin1 _) (hout1 _) (A_eq1 _)),
    .host (hseg hostOps2 hostOps2_sub hostOps2_fresh (W4 m ρ)),
    .region (reg (pdats m ρ) 2 launch2 (W5 m ρ) (body_obligation2 _) (hin2 _) (hout2 _) (A_eq2 _)),
    .host (hseg hostOps3 hostOps3_sub hostOps3_fresh (W6 m ρ)),
    .region (reg (pdats m ρ) 3 launch3 (W7 m ρ) (body_obligation3 _) (hin3 _) (hout3 _) (A_eq3 _)) ]

/-- The eight segments chain from `T W0` to `T W8`, so every fair run of @main ends with each unscoped buffer at `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [show main c = Pipeline.Seg.run (segs m ρ) from (main_chain c).trans (by chain_rfl)])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]; iintro Hu; imodintro
      isplitl [Hu]; · iapply (show (ownU _ : sProp 𝕄) ⊢ BI.own (emb₁ (initOf (Pipeline.cells cfgs cellOf_inj) (Pipeline.launchToks cfgs cellOf_inj))) from .rfl); iexact Hu
      iempintro)
    (T₀ := T (W0 m ρ)) (Tₙ := fun c => iprop(StableHlo.held (c : Thread nD τ) (Pipeline.ucRefs τ sig) (W8 m ρ c) ∗ ∃ r, prngReg c r))
    (hch := ⟨fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c _ = _ from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- No argument array is a segment's result, so `run_all` and `W8_unwritten` give each back as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have k (b : Ref sig .tc) (hs : ¬ (Proc.devRef .tc b : DevRef τ sig).isScoped)
        (hb : b ∉ ([main_v0, main_v1, main_v2, main_v3, main_v4, main_v5, main_v6, main_v7] : List (Ref sig .tc))) :
        r.2.mem ((c.tc : Thread nD τ).loc b) = m ((c.tc : Thread nD τ).loc b) := (h c _ (mem_uc b hs)).trans (W8_unwritten m ρ c b hb)
    ⟨k main_arg0 (by decide) (by decide), k main_arg1 (by decide) (by decide), k main_arg2 (by decide) (by decide),
      k main_arg3 (by decide) (by decide), k main_arg4 (by decide) (by decide), k main_arg5 (by decide) (by decide),
      k main_arg6 (by decide) (by decide), k main_arg7 (by decide) (by decide), k main_arg8 (by decide) (by decide)⟩) (run_all m ρ)

end Cert.Kernel.Hand
end
-- ==== Proof.KIBody0.lean ====
import proofs.«118811_j6030134084248_1_alg».proof.Proof.Gen.KernelIdeal.Launch
import proofs.«118811_j6030134084248_1_alg».proof.Proof.Gen.KernelIdeal.Skeleton
import proofs.«118811_j6030134084248_1_alg».proof.Proof.Gen.KernelIdeal.Points
import Idealize.ShloMosaic.Lib.Pipeline.FrameBody
import Idealize.ShloMosaic.Lib.Pipeline.Value
import proofs.«118811_j6030134084248_1_alg».proof.Proof.LibWholeStore
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0 : (![0, 0] : Fin 2 → Nat) = fun _ => 0 := funext fun a => by fin_cases a <;> rfl

abbrev first0 (i : grid0.Coords) : Prop := (Scalar.cmpi .ne (Scalar.extui (Scalar.cmpi .eq (BitVec.ofNat 32 (i 2).val) 0#32)) 0#32) = 1#1
abbrev last0 (i : grid0.Coords) : Prop := k0_cond2 i = 1#1

variable (c : Dev nD) (i : grid0.Coords) (arg3 : Memref sig .tc .vmem S512x128 .f32) (harg3 : arg3.IsWhole)
  (arg4 : Memref sig .tc .vmem S128x1024 .f32) (harg4 : arg4.IsWhole) (arg5 : Memref sig .tc .vmem S1x1024 .f32) (harg5 : arg5.IsWhole)
  (arg6 : Memref sig .tc .vmem S512x1024 .f32) (harg6 : arg6.IsWhole) (arg7 : Memref sig .tc .vmem S512x1024 .f32) (harg7 : arg7.IsWhole)
  (x : Vec F S512x128 .f32) (w : Vec F S128x1024 .f32) (b : Vec F S1x1024 .f32)

/-- Every point is a first and a last K-step: the body zeroes the accumulator, adds the block product, and stores the
    activation of the sum plus the bias row. -/
theorem run0 (hc0 : first0 i) (hc1 : last0 i) (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare (k0_pay3 b (k0_pay2 w x (k0_pay1 (F := F))))
            ∗ owns (c : Thread nD τ) arg7 fullShare (k0_pay2 w x (k0_pay1 (F := F)))) -∗ K ⟨⟩))
      ⊢ wp frame (wpE (defs₀ (F := F)) Variants.none c none) E (cc0__qdense_kernel i arg3 harg3 arg4 harg4 arg5 harg5 arg6 harg6 arg7 harg7) K := by
  simp only [cc0__qdense_kernel_eq_skeleton]; unfold cc0__qdense_kernel_skel
  unfold owns
  iintro ⟨⟨%f3, %hf3, H3⟩, ⟨%f4, %hf4, H4⟩, ⟨%f5, %hf5, H5⟩, ⟨%d6, %f6, -, H6⟩, ⟨%d7, %f7, -, H7⟩, Hk⟩
  obtain rfl := harg3.eq_unread hf3; obtain rfl := harg4.eq_unread hf4; obtain rfl := harg5.eq_unread hf5
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (View.read_writes_eq_canon _ _ _ (View.cover_of_tiledL _ S512x1024.size (by sl_kernel_rfl))).trans ?_
    sl_unfold_words
    rw [View.canon_cons_unit_zero (S := S512x1024) hz0]
    simp only [View.readCov_unit_zero (S := S512x1024) _ hz0, Cert.LibWholeStore.readCov_cons_unit_zero (S := S512x1024) _ hz0, View.readAt_eq_ld, harg3.read_unread, harg4.read_unread, harg5.read_unread, harg6.read_unread, harg7.read_unread, View.ld_unit_zero (S := S512x128) hz0, View.ld_unit_zero (S := S128x1024) hz0, View.ld_unit_zero (S := S512x1024) hz0, View.ld_unit_zero (S := S1x1024) hz0]
  iexists _; isplitr
  swap; · iexact H7
  ipureintro
  refine (View.read_writes_eq_canon _ _ _ (View.cover_of_tiledL _ S512x1024.size (by sl_kernel_rfl))).trans ?_
  sl_unfold_words
  rw [View.canon_cons_unit_zero (S := S512x1024) hz0]
  simp only [View.readCov_unit_zero (S := S512x1024) _ hz0, Cert.LibWholeStore.readCov_cons_unit_zero (S := S512x1024) _ hz0, View.readAt_eq_ld, harg3.read_unread, harg4.read_unread, harg5.read_unread, harg6.read_unread, harg7.read_unread, View.ld_unit_zero (S := S512x128) hz0, View.ld_unit_zero (S := S128x1024) hz0, View.ld_unit_zero (S := S512x1024) hz0, View.ld_unit_zero (S := S1x1024) hz0]

end Cert.KernelIdeal.Hand
end
-- ==== Proof.KIRegion0.lean ====
import proofs.«118811_j6030134084248_1_alg».proof.Proof.KIBody0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xblk0 (c : Dev nD) (t : Fin cfg0.N) : Vec F S512x128 .f32 := iblk0 V c 0 t
abbrev wblk0 (c : Dev nD) (t : Fin cfg0.N) : Vec F S128x1024 .f32 := iblk0 V c 1 t
abbrev bblk0 (c : Dev nD) (t : Fin cfg0.N) : Vec F S1x1024 .f32 := iblk0 V c 2 t

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev scM0 : Memref sig .tc .vmem S512x1024 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ rest0 (F := F) c) := by
  rw [scopedRest0_split]; simp only [scM0, owns_whole]; rfl

theorem hfirst0 : ∀ t : Fin cfg0.N, first0 (grid0.coords t) :=
  (by decide +kernel : ∀ t : Fin grid0.N, first0 (grid0.coords t))
theorem hlast0 : ∀ t : Fin cfg0.N, last0 (grid0.coords t) :=
  (by decide +kernel : ∀ t : Fin grid0.N, last0 (grid0.coords t))
theorem live0_3 : ∀ t : Fin cfg0.N, cfg0.idle 3 (grid0.coords t) = false := by decide +kernel

/-- What the accumulator holds after point `n`: its one step over the zero block. -/
def accAt0 (c : Dev nD) (n : ℕ) (hn : n < cfg0.N) : Vec F S512x1024 .f32 :=
  k0_pay2 (wblk0 V c ⟨n, hn⟩) (xblk0 V c ⟨n, hn⟩) (k0_pay1 (F := F))

/-- Every point is a first K-step, so no point depends on the accumulator left by the one before. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (bblk0 V c t) (accAt0 V c t.val t.isLt)
  Φ _ := Pipeline.scopedRest (Ix := Unit) (Name := ℕ) (U := UR sig nD τ) (Lvl := ℕ) (Val := Elt F) spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (bblk0 V c t) (accAt0 V c t.val t.isLt) := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).leavesExact 0 t = owns (c : Thread nD τ) (ms0_0 t) fullShare ((dat0 V c).after 0 t) from rfl, after0_0,
    show (dat0 V c).leavesExact 1 t = owns (c : Thread nD τ) (ms0_1 t) fullShare ((dat0 V c).after 1 t) from rfl, after0_1,
    show (dat0 V c).leavesExact 2 t = owns (c : Thread nD τ) (ms0_2 t) fullShare ((dat0 V c).after 2 t) from rfl, after0_2]
  rw [show (dat0 V c).leavesExact 3 t = owns (c : Thread nD τ) (ms0_3 t) fullShare ((dat0 V c).after 3 t) from by
      unfold Dat.leavesExact; rw [live0_3 t], after0_3,
    show accAt0 V c t.val t.isLt = k0_pay2 (wblk0 V c t) (xblk0 V c t) (k0_pay1 (F := F)) from rfl,
    show (dat0 V c).Φ t.succ = (dat0 V c).Φ t.castSucc from rfl,
    show (dat0 V c).Φ t.castSucc = Pipeline.scopedRest (Ix := Unit) (Name := ℕ) (U := UR sig nD τ) (Lvl := ℕ) (Val := Elt F) spec0 c from rfl,
    scopedRest0_owns]
  iintro ⟨⟨HS, Hr⟩, Ho, ⟨%d0, H0⟩, ⟨%d1, H1⟩, ⟨%d2, H2⟩, ⟨%d3, H3⟩⟩
  iapply (run0 c (grid0.coords t) (ms0_0 t) (hs0_0 t) (ms0_1 t) (hs0_1 t) (ms0_2 t) (hs0_2 t) (ms0_3 t) (hs0_3 t) scM0 (Memref.isWhole_whole _)
    (xblk0 V c t) (wblk0 V c t) (bblk0 V c t) (hfirst0 t) (hlast0 t) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hr]
  · isplitl [HS]; · iexists _; iexact HS
    iexact Hr
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) :
    (Pipeline.scopedRest (Ix := Unit) (Name := ℕ) (U := UR sig nD τ) (Lvl := ℕ) (Val := Elt F) spec0 c : sProp 𝕄) ⊢ (dat0 V c).Φ 0 := .rfl

theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := .rfl

end Cert.KernelIdeal.Hand
end
-- ==== Proof.KIBody1.lean ====
import proofs.«118811_j6030134084248_1_alg».proof.Proof.Gen.KernelIdeal.Launch
import proofs.«118811_j6030134084248_1_alg».proof.Proof.Gen.KernelIdeal.Skeleton
import proofs.«118811_j6030134084248_1_alg».proof.Proof.Gen.KernelIdeal.Points
import Idealize.ShloMosaic.Lib.Pipeline.FrameBody
import Idealize.ShloMosaic.Lib.Pipeline.Value
import proofs.«118811_j6030134084248_1_alg».proof.Proof.LibWholeStore
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

abbrev first1 (i : grid1.Coords) : Prop := (Scalar.cmpi .ne (Scalar.extui (Scalar.cmpi .eq (BitVec.ofNat 32 (i 2).val) 0#32)) 0#32) = 1#1
abbrev last1 (i : grid1.Coords) : Prop := k1_cond2 i = 1#1

variable (c : Dev nD) (i : grid1.Coords) (arg3 : Memref sig .tc .vmem S512x1024 .f32) (harg3 : arg3.IsWhole)
  (arg4 : Memref sig .tc .vmem S1024x1024 .f32) (harg4 : arg4.IsWhole) (arg5 : Memref sig .tc .vmem S1x1024 .f32) (harg5 : arg5.IsWhole)
  (arg6 : Memref sig .tc .vmem S512x1024 .f32) (harg6 : arg6.IsWhole) (arg7 : Memref sig .tc .vmem S512x1024 .f32) (harg7 : arg7.IsWhole)
  (x : Vec F S512x1024 .f32) (w : Vec F S1024x1024 .f32) (b : Vec F S1x1024 .f32)

/-- Every point is a first and a last K-step: the body zeroes the accumulator, adds the block product, and stores the
    activation of the sum plus the bias row. -/
theorem run1 (hc0 : first1 i) (hc1 : last1 i) (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare (k1_pay3 b (k1_pay2 w x (k1_pay1 (F := F))))
            ∗ owns (c : Thread nD τ) arg7 fullShare (k1_pay2 w x (k1_pay1 (F := F)))) -∗ K ⟨⟩))
      ⊢ wp frame (wpE (defs₀ (F := F)) Variants.none c none) E (cc1__qdense_kernel i arg3 harg3 arg4 harg4 arg5 harg5 arg6 harg6 arg7 harg7) K := by
  simp only [cc1__qdense_kernel_eq_skeleton]; unfold cc1__qdense_kernel_skel
  unfold owns
  iintro ⟨⟨%f3, %hf3, H3⟩, ⟨%f4, %hf4, H4⟩, ⟨%f5, %hf5, H5⟩, ⟨%d6, %f6, -, H6⟩, ⟨%d7, %f7, -, H7⟩, Hk⟩
  obtain rfl := harg3.eq_unread hf3; obtain rfl := harg4.eq_unread hf4; obtain rfl := harg5.eq_unread hf5
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (View.read_writes_eq_canon _ _ _ (View.cover_of_tiledL _ S512x1024.size (by sl_kernel_rfl))).trans ?_
    sl_unfold_words
    rw [View.canon_cons_unit_zero (S := S512x1024) hz1]
    simp only [View.readCov_unit_zero (S := S512x1024) _ hz1, Cert.LibWholeStore.readCov_cons_unit_zero (S := S512x1024) _ hz1, View.readAt_eq_ld, harg3.read_unread, harg4.read_unread, harg5.read_unread, harg6.read_unread, harg7.read_unread, View.ld_unit_zero (S := S512x1024) hz1, View.ld_unit_zero (S := S1024x1024) hz1, View.ld_unit_zero (S := S512x1024) hz1, View.ld_unit_zero (S := S1x1024) hz1]
  iexists _; isplitr
  swap; · iexact H7
  ipureintro
  refine (View.read_writes_eq_canon _ _ _ (View.cover_of_tiledL _ S512x1024.size (by sl_kernel_rfl))).trans ?_
  sl_unfold_words
  rw [View.canon_cons_unit_zero (S := S512x1024) hz1]
  simp only [View.readCov_unit_zero (S := S512x1024) _ hz1, Cert.LibWholeStore.readCov_cons_unit_zero (S := S512x1024) _ hz1, View.readAt_eq_ld, harg3.read_unread, harg4.read_unread, harg5.read_unread, harg6.read_unread, harg7.read_unread, View.ld_unit_zero (S := S512x1024) hz1, View.ld_unit_zero (S := S1024x1024) hz1, View.ld_unit_zero (S := S512x1024) hz1, View.ld_unit_zero (S := S1x1024) hz1]

end Cert.KernelIdeal.Hand
end
-- ==== Proof.KIRegion1.lean ====
import proofs.«118811_j6030134084248_1_alg».proof.Proof.KIBody1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk1 (c : Dev nD) (t : Fin cfg1.N) : Vec F S512x1024 .f32 := iblk1 V c 0 t
abbrev wblk1 (c : Dev nD) (t : Fin cfg1.N) : Vec F S1024x1024 .f32 := iblk1 V c 1 t
abbrev bblk1 (c : Dev nD) (t : Fin cfg1.N) : Vec F S1x1024 .f32 := iblk1 V c 2 t

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
abbrev scM1 : Memref sig .tc .vmem S512x1024 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem scopedRest1_owns (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ rest1 (F := F) c) := by
  rw [scopedRest1_split]; simp only [scM1, owns_whole]; rfl

theorem hfirst1 : ∀ t : Fin cfg1.N, first1 (grid1.coords t) :=
  (by decide +kernel : ∀ t : Fin grid1.N, first1 (grid1.coords t))
theorem hlast1 : ∀ t : Fin cfg1.N, last1 (grid1.coords t) :=
  (by decide +kernel : ∀ t : Fin grid1.N, last1 (grid1.coords t))
theorem live1_3 : ∀ t : Fin cfg1.N, cfg1.idle 3 (grid1.coords t) = false := by decide +kernel

/-- What the accumulator holds after point `n`: its one step over the zero block. -/
def accAt1 (c : Dev nD) (n : ℕ) (hn : n < cfg1.N) : Vec F S512x1024 .f32 :=
  k1_pay2 (wblk1 V c ⟨n, hn⟩) (xblk1 V c ⟨n, hn⟩) (k1_pay1 (F := F))

/-- Every point is a first K-step, so no point depends on the accumulator left by the one before. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (bblk1 V c t) (accAt1 V c t.val t.isLt)
  Φ _ := Pipeline.scopedRest (Ix := Unit) (Name := ℕ) (U := UR sig nD τ) (Lvl := ℕ) (Val := Elt F) spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (bblk1 V c t) (accAt1 V c t.val t.isLt) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).leavesExact 0 t = owns (c : Thread nD τ) (ms1_0 t) fullShare ((dat1 V c).after 0 t) from rfl, after1_0,
    show (dat1 V c).leavesExact 1 t = owns (c : Thread nD τ) (ms1_1 t) fullShare ((dat1 V c).after 1 t) from rfl, after1_1,
    show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from by
      unfold Dat.leavesExact; rw [live1_3 t], after1_3,
    show accAt1 V c t.val t.isLt = k1_pay2 (wblk1 V c t) (xblk1 V c t) (k1_pay1 (F := F)) from rfl,
    show (dat1 V c).Φ t.succ = (dat1 V c).Φ t.castSucc from rfl,
    show (dat1 V c).Φ t.castSucc = Pipeline.scopedRest (Ix := Unit) (Name := ℕ) (U := UR sig nD τ) (Lvl := ℕ) (Val := Elt F) spec1 c from rfl,
    scopedRest1_owns]
  iintro ⟨⟨HS, Hr⟩, Ho, ⟨%d0, H0⟩, ⟨%d1, H1⟩, ⟨%d2, H2⟩, ⟨%d3, H3⟩⟩
  iapply (run1 c (grid1.coords t) (ms1_0 t) (hs1_0 t) (ms1_1 t) (hs1_1 t) (ms1_2 t) (hs1_2 t) (ms1_3 t) (hs1_3 t) scM1 (Memref.isWhole_whole _)
    (xblk1 V c t) (wblk1 V c t) (bblk1 V c t) (hfirst1 t) (hlast1 t) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hr]
  · isplitl [HS]; · iexists _; iexact HS
    iexact Hr
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) :
    (Pipeline.scopedRest (Ix := Unit) (Name := ℕ) (U := UR sig nD τ) (Lvl := ℕ) (Val := Elt F) spec1 c : sProp 𝕄) ⊢ (dat1 V c).Φ 0 := .rfl

theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := .rfl

end Cert.KernelIdeal.Hand
end
-- ==== Proof.KIBody2.lean ====
import proofs.«118811_j6030134084248_1_alg».proof.Proof.Gen.KernelIdeal.Launch
import proofs.«118811_j6030134084248_1_alg».proof.Proof.Gen.KernelIdeal.Skeleton
import proofs.«118811_j6030134084248_1_alg».proof.Proof.Gen.KernelIdeal.Points
import Idealize.ShloMosaic.Lib.Pipeline.FrameBody
import Idealize.ShloMosaic.Lib.Pipeline.Value
import proofs.«118811_j6030134084248_1_alg».proof.Proof.LibWholeStore
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

abbrev first2 (i : grid2.Coords) : Prop := (Scalar.cmpi .ne (Scalar.extui (Scalar.cmpi .eq (BitVec.ofNat 32 (i 2).val) 0#32)) 0#32) = 1#1
abbrev last2 (i : grid2.Coords) : Prop := k2_cond2 i = 1#1

variable (c : Dev nD) (i : grid2.Coords) (arg3 : Memref sig .tc .vmem S512x1024 .f32) (harg3 : arg3.IsWhole)
  (arg4 : Memref sig .tc .vmem S1024x1024 .f32) (harg4 : arg4.IsWhole) (arg5 : Memref sig .tc .vmem S1x1024 .f32) (harg5 : arg5.IsWhole)
  (arg6 : Memref sig .tc .vmem S512x1024 .f32) (harg6 : arg6.IsWhole) (arg7 : Memref sig .tc .vmem S512x1024 .f32) (harg7 : arg7.IsWhole)
  (x : Vec F S512x1024 .f32) (w : Vec F S1024x1024 .f32) (b : Vec F S1x1024 .f32)
  (o a : Vec F S512x1024 .f32)

set_option maxHeartbeats 1000000 in
/-- One K-step: the accumulator restarts from zero at a first step and gains the block product; at a last step the
    output block is the activation of the accumulator plus the bias row, at any other step it is left as found. -/
theorem run2 (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare
                (if last2 i then k2_pay3 b (k2_pay2 w x (if first2 i then k2_pay1 (F := F) else a)) else o)
            ∗ owns (c : Thread nD τ) arg7 fullShare (k2_pay2 w x (if first2 i then k2_pay1 (F := F) else a))) -∗ K ⟨⟩))
      ⊢ wp frame (wpE (defs₀ (F := F)) Variants.none c none) E (cc2__qdense_kernel i arg3 harg3 arg4 harg4 arg5 harg5 arg6 harg6 arg7 harg7) K := by
  by_cases hc0 : first2 i <;> by_cases hc1 : last2 i <;>
  ( first | rw [if_pos hc0] | rw [if_neg hc0]
    first | rw [if_pos hc1] | rw [if_neg hc1]
    simp only [cc2__qdense_kernel_eq_skeleton]; unfold cc2__qdense_kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro
      first
        | (refine (View.read_writes_eq_canon _ _ _ (View.cover_of_tiledL _ S512x1024.size (by sl_kernel_rfl))).trans ?_
           sl_unfold_words
           rw [View.canon_cons_unit_zero (S := S512x1024) hz2]
           simp only [View.readCov_unit_zero (S := S512x1024) _ hz2, Cert.LibWholeStore.readCov_cons_unit_zero (S := S512x1024) _ hz2, View.readAt_eq_ld, harg3.read_unread, harg4.read_unread, harg5.read_unread, harg6.read_unread, harg7.read_unread, View.ld_unit_zero (S := S512x1024) hz2, View.ld_unit_zero (S := S1024x1024) hz2, View.ld_unit_zero (S := S512x1024) hz2, View.ld_unit_zero (S := S1x1024) hz2])
        | exact harg6.read_unread _
    iexists _; isplitr
    swap; · iexact H7
    ipureintro
    refine (View.read_writes_eq_canon _ _ _ (View.cover_of_tiledL _ S512x1024.size (by sl_kernel_rfl))).trans ?_
    sl_unfold_words
    rw [View.canon_cons_unit_zero (S := S512x1024) hz2]
    simp only [View.readCov_unit_zero (S := S512x1024) _ hz2, Cert.LibWholeStore.readCov_cons_unit_zero (S := S512x1024) _ hz2, View.readAt_eq_ld, harg3.read_unread, harg4.read_unread, harg5.read_unread, harg6.read_unread, harg7.read_unread, View.ld_unit_zero (S := S512x1024) hz2, View.ld_unit_zero (S := S1024x1024) hz2, View.ld_unit_zero (S := S512x1024) hz2, View.ld_unit_zero (S := S1x1024) hz2] )

end Cert.KernelIdeal.Hand
end
-- ==== Proof.KIRegion2.lean ====
import proofs.«118811_j6030134084248_1_alg».proof.Proof.KIBody2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk2 (c : Dev nD) (t : Fin cfg2.N) : Vec F S512x1024 .f32 := iblk2 V c 0 t
abbrev wblk2 (c : Dev nD) (t : Fin cfg2.N) : Vec F S1024x1024 .f32 := iblk2 V c 1 t
abbrev bblk2 (c : Dev nD) (t : Fin cfg2.N) : Vec F S1x1024 .f32 := iblk2 V c 2 t

abbrev ms2_0 (t : Fin cfg2.N) : Memref sig .tc .vmem S512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
abbrev scM2 : Memref sig .tc .vmem S512x1024 .f32 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

theorem scopedRest2_owns (c : Dev nD) :
    (Pipeline.scopedRest (Ix := Unit) (Name := ℕ) (U := UR sig nD τ) (Lvl := ℕ) (Val := Elt F) spec2 c : sProp 𝕄)
      = iprop((∃ d, owns (c : Thread nD τ) scM2 fullShare d) ∗ rest2 (F := F) c) := by
  rw [scopedRest2_split]; simp only [scM2, owns_whole]; rfl

theorem hfirst2 : ∀ t : Fin cfg2.N, first2 (grid2.coords t) ↔ t.val % 2 = 0 :=
  (by decide +kernel : ∀ t : Fin grid2.N, first2 (grid2.coords t) ↔ t.val % 2 = 0)
theorem hlast2 : ∀ t : Fin cfg2.N, last2 (grid2.coords t) ↔ t.val % 2 = 1 :=
  (by decide +kernel : ∀ t : Fin grid2.N, last2 (grid2.coords t) ↔ t.val % 2 = 1)
theorem live2_3 : ∀ t : Fin cfg2.N, last2 (grid2.coords t) → cfg2.idle 3 (grid2.coords t) = false := by decide +kernel
theorem idle2_3 : ∀ t : Fin cfg2.N, ¬last2 (grid2.coords t) → cfg2.idle 3 (grid2.coords t) = true := by decide +kernel
theorem noFlush2_3 : ∀ t : Fin cfg2.N, ¬last2 (grid2.coords t) → (cfg2.win 3).flush t = false := by decide +kernel

/-- What the accumulator holds after point `n`: the step's payload over zero at a first K-step, over the point before otherwise. -/
def accAt2 (c : Dev nD) : (n : ℕ) → n < cfg2.N → Vec F S512x1024 .f32
  | 0, hn => k2_pay2 (wblk2 V c ⟨0, hn⟩) (xblk2 V c ⟨0, hn⟩) (k2_pay1 (F := F))
  | n + 1, hn =>
    if (n + 1) % 2 = 0 then k2_pay2 (wblk2 V c ⟨n + 1, hn⟩) (xblk2 V c ⟨n + 1, hn⟩) (k2_pay1 (F := F))
    else k2_pay2 (wblk2 V c ⟨n + 1, hn⟩) (xblk2 V c ⟨n + 1, hn⟩) (accAt2 c n (Nat.lt_of_succ_lt hn))

theorem accAt2_first (c : Dev nD) (t : Fin cfg2.N) (h : t.val % 2 = 0) :
    accAt2 V c t.val t.isLt = k2_pay2 (wblk2 V c t) (xblk2 V c t) (k2_pay1 (F := F)) := by
  obtain ⟨n, hn⟩ := t
  cases n with
  | zero => rfl
  | succ n => exact (if_pos h)

theorem accAt2_next (c : Dev nD) (t : Fin cfg2.N) (h : ¬t.val % 2 = 0) :
    accAt2 V c t.val t.isLt = k2_pay2 (wblk2 V c t) (xblk2 V c t) (accAt2 V c (t.val - 1) (Nat.lt_of_le_of_lt (Nat.sub_le _ _) t.isLt)) := by
  obtain ⟨n, hn⟩ := t
  cases n with
  | zero => exact absurd (Nat.zero_mod _) h
  | succ n => exact (if_neg h)

/-- After point `n - 1` the accumulator is `accAt (n - 1)`; before the first point it is anything. -/
def Phi2 (c : Dev nD) (n : ℕ) (h : n ≤ cfg2.N) : sProp 𝕄 :=
  iprop(∃ a, ⌜∀ hz : n ≠ 0, a = accAt2 V c (n - 1) (by omega)⌝ ∗ owns (c : Thread nD τ) scM2 fullShare a ∗ rest2 (F := F) c)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (bblk2 V c t) (accAt2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (bblk2 V c t) (accAt2 V c t.val t.isLt) := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- The step's payload over what the invariant hands over is this point's `accAt`. -/
theorem acc2_step (c : Dev nD) (t : Fin cfg2.N) (a : Vec F S512x1024 .f32)
    (ha : ∀ hz : t.val ≠ 0, a = accAt2 V c (t.val - 1) (Nat.lt_of_le_of_lt (Nat.sub_le _ _) t.isLt)) :
    k2_pay2 (wblk2 V c t) (xblk2 V c t) (if first2 (grid2.coords t) then k2_pay1 (F := F) else a) = accAt2 V c t.val t.isLt := by
  by_cases h0 : t.val % 2 = 0
  · rw [if_pos ((hfirst2 t).mpr h0), accAt2_first V c t h0]
  · rw [if_neg (fun h => h0 ((hfirst2 t).mp h)), accAt2_next V c t h0, ha (fun e => h0 (by rw [e]))]

/-- At a last K-step the output block is the activation of the finished accumulator plus the bias row; at any other it is unchanged. -/
theorem leaves2_3 (c : Dev nD) (t : Fin cfg2.N) (d) :
    owns (c : Thread nD τ) (ms2_3 t) fullShare
        (if last2 (grid2.coords t) then k2_pay3 (bblk2 V c t) (accAt2 V c t.val t.isLt) else (dat2 V c).before 3 t d)
      ⊢ (dat2 V c).leavesExact 3 t := by
  by_cases hl : last2 (grid2.coords t)
  · rw [if_pos hl, show (dat2 V c).leavesExact 3 t = owns (c : Thread nD τ) (ms2_3 t) fullShare ((dat2 V c).after 3 t) from by
      unfold Dat.leavesExact; rw [live2_3 t hl], after2_3]
  · rw [if_neg hl, Dat.leavesExact_idle (dat2 V c) 3 t (idle2_3 t hl) (noFlush2_3 t hl)]
    iintro H; iexists d; iexact H

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).leavesExact 0 t = owns (c : Thread nD τ) (ms2_0 t) fullShare ((dat2 V c).after 0 t) from rfl, after2_0,
    show (dat2 V c).leavesExact 1 t = owns (c : Thread nD τ) (ms2_1 t) fullShare ((dat2 V c).after 1 t) from rfl, after2_1,
    show (dat2 V c).leavesExact 2 t = owns (c : Thread nD τ) (ms2_2 t) fullShare ((dat2 V c).after 2 t) from rfl, after2_2]
  rw [show (dat2 V c).Φ t.succ = Phi2 V c (t.val + 1) t.isLt from rfl,
    show (dat2 V c).Φ t.castSucc = Phi2 V c t.val (Nat.le_of_lt t.isLt) from by dsimp only [dat2]; simp only [Fin.coe_castSucc]]
  unfold Phi2
  iintro ⟨⟨%a, %ha, HS, Hr⟩, Ho, ⟨%d0, H0⟩, ⟨%d1, H1⟩, ⟨%d2, H2⟩, ⟨%d3, H3⟩⟩
  iapply (run2 c (grid2.coords t) (ms2_0 t) (hs2_0 t) (ms2_1 t) (hs2_1 t) (ms2_2 t) (hs2_2 t) (ms2_3 t) (hs2_3 t) scM2 (Memref.isWhole_whole _)
    (xblk2 V c t) (wblk2 V c t) (bblk2 V c t) ((dat2 V c).before 3 t d3) a Set.univ _)
  isplitl [H0]; · iexact H0
  isplitl [H1]; · iexact H1
  isplitl [H2]; · iexact H2
  isplitl [H3]; · iexact H3
  isplitl [HS]; · iexact HS
  rw [acc2_step V c t a ha]
  iintro ⟨H0, H1, H2, H3, HS⟩
  isplitl [HS Hr]
  · iexists (accAt2 V c t.val t.isLt); isplitr; · ipureintro; exact fun _ => rfl
    isplitl [HS]; · iexact HS
    iexact Hr
  isplitl [Ho]; · iexact Ho
  isplitl [H0]; · iexact H0
  isplitl [H1]; · iexact H1
  isplitl [H2]; · iexact H2
  iapply (leaves2_3 V c t d3); iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) :
    (Pipeline.scopedRest (Ix := Unit) (Name := ℕ) (U := UR sig nD τ) (Lvl := ℕ) (Val := Elt F) spec2 c : sProp 𝕄) ⊢ (dat2 V c).Φ 0 := by
  rw [show (dat2 V c).Φ 0 = Phi2 V c 0 (Nat.zero_le _) from rfl, scopedRest2_owns]
  unfold Phi2
  iintro ⟨⟨%d, HS⟩, Hr⟩
  iexists d; isplitr; · ipureintro; exact fun hz => absurd rfl hz
  isplitl [HS]; · iexact HS
  iexact Hr

theorem hout2 (c : Dev nD) :
    (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = Phi2 V c (Fin.last cfg2.N).val (Nat.le_of_lt_succ (Fin.last cfg2.N).isLt) from rfl, scopedRest2_owns]
  unfold Phi2
  iintro ⟨%a, -, HS, Hr⟩
  isplitl [HS]; · iexists a; iexact HS
  iexact Hr

end Cert.KernelIdeal.Hand
end
-- ==== Proof.KIBody3.lean ====
import proofs.«118811_j6030134084248_1_alg».proof.Proof.Gen.KernelIdeal.Launch
import proofs.«118811_j6030134084248_1_alg».proof.Proof.Gen.KernelIdeal.Skeleton
import proofs.«118811_j6030134084248_1_alg».proof.Proof.Gen.KernelIdeal.Points
import Idealize.ShloMosaic.Lib.Pipeline.FrameBody
import Idealize.ShloMosaic.Lib.Pipeline.Value
import proofs.«118811_j6030134084248_1_alg».proof.Proof.LibWholeStore
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0] : Fin 2 → Nat) = fun _ => 0 := funext fun a => by fin_cases a <;> rfl

abbrev first3 (i : grid3.Coords) : Prop := (Scalar.cmpi .ne (Scalar.extui (Scalar.cmpi .eq (BitVec.ofNat 32 (i 2).val) 0#32)) 0#32) = 1#1
abbrev last3 (i : grid3.Coords) : Prop := k3_cond2 i = 1#1

variable (c : Dev nD) (i : grid3.Coords) (arg3 : Memref sig .tc .vmem S512x1024 .f32) (harg3 : arg3.IsWhole)
  (arg4 : Memref sig .tc .vmem S1024x1024 .f32) (harg4 : arg4.IsWhole) (arg5 : Memref sig .tc .vmem S1x1024 .f32) (harg5 : arg5.IsWhole)
  (arg6 : Memref sig .tc .vmem S512x1024 .f32) (harg6 : arg6.IsWhole) (arg7 : Memref sig .tc .vmem S512x1024 .f32) (harg7 : arg7.IsWhole)
  (x : Vec F S512x1024 .f32) (w : Vec F S1024x1024 .f32) (b : Vec F S1x1024 .f32)
  (o a : Vec F S512x1024 .f32)

set_option maxHeartbeats 1000000 in
/-- One K-step: the accumulator restarts from zero at a first step and gains the block product; at a last step the
    output block is the activation of the accumulator plus the bias row, at any other step it is left as found. -/
theorem run3 (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare
                (if last3 i then k3_pay3 b (k3_pay2 w x (if first3 i then k3_pay1 (F := F) else a)) else o)
            ∗ owns (c : Thread nD τ) arg7 fullShare (k3_pay2 w x (if first3 i then k3_pay1 (F := F) else a))) -∗ K ⟨⟩))
      ⊢ wp frame (wpE (defs₀ (F := F)) Variants.none c none) E (cc3__qdense_kernel i arg3 harg3 arg4 harg4 arg5 harg5 arg6 harg6 arg7 harg7) K := by
  by_cases hc0 : first3 i <;> by_cases hc1 : last3 i <;>
  ( first | rw [if_pos hc0] | rw [if_neg hc0]
    first | rw [if_pos hc1] | rw [if_neg hc1]
    simp only [cc3__qdense_kernel_eq_skeleton]; unfold cc3__qdense_kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro
      first
        | (refine (View.read_writes_eq_canon _ _ _ (View.cover_of_tiledL _ S512x1024.size (by sl_kernel_rfl))).trans ?_
           sl_unfold_words
           rw [View.canon_cons_unit_zero (S := S512x1024) hz3]
           simp only [View.readCov_unit_zero (S := S512x1024) _ hz3, Cert.LibWholeStore.readCov_cons_unit_zero (S := S512x1024) _ hz3, View.readAt_eq_ld, harg3.read_unread, harg4.read_unread, harg5.read_unread, harg6.read_unread, harg7.read_unread, View.ld_unit_zero (S := S512x1024) hz3, View.ld_unit_zero (S := S1024x1024) hz3, View.ld_unit_zero (S := S512x1024) hz3, View.ld_unit_zero (S := S1x1024) hz3])
        | exact harg6.read_unread _
    iexists _; isplitr
    swap; · iexact H7
    ipureintro
    refine (View.read_writes_eq_canon _ _ _ (View.cover_of_tiledL _ S512x1024.size (by sl_kernel_rfl))).trans ?_
    sl_unfold_words
    rw [View.canon_cons_unit_zero (S := S512x1024) hz3]
    simp only [View.readCov_unit_zero (S := S512x1024) _ hz3, Cert.LibWholeStore.readCov_cons_unit_zero (S := S512x1024) _ hz3, View.readAt_eq_ld, harg3.read_unread, harg4.read_unread, harg5.read_unread, harg6.read_unread, harg7.read_unread, View.ld_unit_zero (S := S512x1024) hz3, View.ld_unit_zero (S := S1024x1024) hz3, View.ld_unit_zero (S := S512x1024) hz3, View.ld_unit_zero (S := S1x1024) hz3] )

end Cert.KernelIdeal.Hand
end
-- ==== Proof.KIRegion3.lean ====
import proofs.«118811_j6030134084248_1_alg».proof.Proof.KIBody3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xblk3 (c : Dev nD) (t : Fin cfg3.N) : Vec F S512x1024 .f32 := iblk3 V c 0 t
abbrev wblk3 (c : Dev nD) (t : Fin cfg3.N) : Vec F S1024x1024 .f32 := iblk3 V c 1 t
abbrev bblk3 (c : Dev nD) (t : Fin cfg3.N) : Vec F S1x1024 .f32 := iblk3 V c 2 t

abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x1024 .f32 := win3_3.stage (cfg3.slots t 3)
abbrev hs3_3 (t : Fin cfg3.N) : (ms3_3 t).IsWhole := hstage3_3 ((cfg3.slots t 3).cast nbuf3_3)
abbrev scM3 : Memref sig .tc .vmem S512x1024 .f32 := Memref.whole cc3_scratch0

abbrev rest3 (c : Dev nD) : sProp 𝕄 :=
  Pipeline.scopedRestBut (Ix := Unit) (Name := ℕ) (U := UR sig nD τ) (Lvl := ℕ) (Val := Elt F) spec3 c [cc3_scratch0]

theorem scopedRest3_owns (c : Dev nD) :
    (Pipeline.scopedRest (Ix := Unit) (Name := ℕ) (U := UR sig nD τ) (Lvl := ℕ) (Val := Elt F) spec3 c : sProp 𝕄)
      = iprop((∃ d, owns (c : Thread nD τ) scM3 fullShare d) ∗ rest3 (F := F) c) := by
  rw [scopedRest3_split]; simp only [scM3, owns_whole]; rfl

theorem hfirst3 : ∀ t : Fin cfg3.N, first3 (grid3.coords t) ↔ t.val % 4 = 0 :=
  (by decide +kernel : ∀ t : Fin grid3.N, first3 (grid3.coords t) ↔ t.val % 4 = 0)
theorem hlast3 : ∀ t : Fin cfg3.N, last3 (grid3.coords t) ↔ t.val % 4 = 3 :=
  (by decide +kernel : ∀ t : Fin grid3.N, last3 (grid3.coords t) ↔ t.val % 4 = 3)
theorem live3_3 : ∀ t : Fin cfg3.N, last3 (grid3.coords t) → cfg3.idle 3 (grid3.coords t) = false := by decide +kernel
theorem idle3_3 : ∀ t : Fin cfg3.N, ¬last3 (grid3.coords t) → cfg3.idle 3 (grid3.coords t) = true := by decide +kernel
theorem noFlush3_3 : ∀ t : Fin cfg3.N, ¬last3 (grid3.coords t) → (cfg3.win 3).flush t = false := by decide +kernel

/-- What the accumulator holds after point `n`: the step's payload over zero at a first K-step, over the point before otherwise. -/
def accAt3 (c : Dev nD) : (n : ℕ) → n < cfg3.N → Vec F S512x1024 .f32
  | 0, hn => k3_pay2 (wblk3 V c ⟨0, hn⟩) (xblk3 V c ⟨0, hn⟩) (k3_pay1 (F := F))
  | n + 1, hn =>
    if (n + 1) % 4 = 0 then k3_pay2 (wblk3 V c ⟨n + 1, hn⟩) (xblk3 V c ⟨n + 1, hn⟩) (k3_pay1 (F := F))
    else k3_pay2 (wblk3 V c ⟨n + 1, hn⟩) (xblk3 V c ⟨n + 1, hn⟩) (accAt3 c n (Nat.lt_of_succ_lt hn))

theorem accAt3_first (c : Dev nD) (t : Fin cfg3.N) (h : t.val % 4 = 0) :
    accAt3 V c t.val t.isLt = k3_pay2 (wblk3 V c t) (xblk3 V c t) (k3_pay1 (F := F)) := by
  obtain ⟨n, hn⟩ := t
  cases n with
  | zero => rfl
  | succ n => exact (if_pos h)

theorem accAt3_next (c : Dev nD) (t : Fin cfg3.N) (h : ¬t.val % 4 = 0) :
    accAt3 V c t.val t.isLt = k3_pay2 (wblk3 V c t) (xblk3 V c t) (accAt3 V c (t.val - 1) (Nat.lt_of_le_of_lt (Nat.sub_le _ _) t.isLt)) := by
  obtain ⟨n, hn⟩ := t
  cases n with
  | zero => exact absurd (Nat.zero_mod _) h
  | succ n => exact (if_neg h)

/-- After point `n - 1` the accumulator is `accAt (n - 1)`; before the first point it is anything. -/
def Phi3 (c : Dev nD) (n : ℕ) (h : n ≤ cfg3.N) : sProp 𝕄 :=
  iprop(∃ a, ⌜∀ hz : n ≠ 0, a = accAt3 V c (n - 1) (by omega)⌝ ∗ owns (c : Thread nD τ) scM3 fullShare a ∗ rest3 (F := F) c)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (bblk3 V c t) (accAt3 V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (bblk3 V c t) (accAt3 V c t.val t.isLt) := by dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

/-- The step's payload over what the invariant hands over is this point's `accAt`. -/
theorem acc3_step (c : Dev nD) (t : Fin cfg3.N) (a : Vec F S512x1024 .f32)
    (ha : ∀ hz : t.val ≠ 0, a = accAt3 V c (t.val - 1) (Nat.lt_of_le_of_lt (Nat.sub_le _ _) t.isLt)) :
    k3_pay2 (wblk3 V c t) (xblk3 V c t) (if first3 (grid3.coords t) then k3_pay1 (F := F) else a) = accAt3 V c t.val t.isLt := by
  by_cases h0 : t.val % 4 = 0
  · rw [if_pos ((hfirst3 t).mpr h0), accAt3_first V c t h0]
  · rw [if_neg (fun h => h0 ((hfirst3 t).mp h)), accAt3_next V c t h0, ha (fun e => h0 (by rw [e]))]

/-- At a last K-step the output block is the activation of the finished accumulator plus the bias row; at any other it is unchanged. -/
theorem leaves3_3 (c : Dev nD) (t : Fin cfg3.N) (d) :
    owns (c : Thread nD τ) (ms3_3 t) fullShare
        (if last3 (grid3.coords t) then k3_pay3 (bblk3 V c t) (accAt3 V c t.val t.isLt) else (dat3 V c).before 3 t d)
      ⊢ (dat3 V c).leavesExact 3 t := by
  by_cases hl : last3 (grid3.coords t)
  · rw [if_pos hl, show (dat3 V c).leavesExact 3 t = owns (c : Thread nD τ) (ms3_3 t) fullShare ((dat3 V c).after 3 t) from by
      unfold Dat.leavesExact; rw [live3_3 t hl], after3_3]
  · rw [if_neg hl, Dat.leavesExact_idle (dat3 V c) 3 t (idle3_3 t hl) (noFlush3_3 t hl)]
    iintro H; iexists d; iexact H

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).leavesExact 0 t = owns (c : Thread nD τ) (ms3_0 t) fullShare ((dat3 V c).after 0 t) from rfl, after3_0,
    show (dat3 V c).leavesExact 1 t = owns (c : Thread nD τ) (ms3_1 t) fullShare ((dat3 V c).after 1 t) from rfl, after3_1,
    show (dat3 V c).leavesExact 2 t = owns (c : Thread nD τ) (ms3_2 t) fullShare ((dat3 V c).after 2 t) from rfl, after3_2]
  rw [show (dat3 V c).Φ t.succ = Phi3 V c (t.val + 1) t.isLt from rfl,
    show (dat3 V c).Φ t.castSucc = Phi3 V c t.val (Nat.le_of_lt t.isLt) from by dsimp only [dat3]; simp only [Fin.coe_castSucc]]
  unfold Phi3
  iintro ⟨⟨%a, %ha, HS, Hr⟩, Ho, ⟨%d0, H0⟩, ⟨%d1, H1⟩, ⟨%d2, H2⟩, ⟨%d3, H3⟩⟩
  iapply (run3 c (grid3.coords t) (ms3_0 t) (hs3_0 t) (ms3_1 t) (hs3_1 t) (ms3_2 t) (hs3_2 t) (ms3_3 t) (hs3_3 t) scM3 (Memref.isWhole_whole _)
    (xblk3 V c t) (wblk3 V c t) (bblk3 V c t) ((dat3 V c).before 3 t d3) a Set.univ _)
  isplitl [H0]; · iexact H0
  isplitl [H1]; · iexact H1
  isplitl [H2]; · iexact H2
  isplitl [H3]; · iexact H3
  isplitl [HS]; · iexact HS
  rw [acc3_step V c t a ha]
  iintro ⟨H0, H1, H2, H3, HS⟩
  isplitl [HS Hr]
  · iexists (accAt3 V c t.val t.isLt); isplitr; · ipureintro; exact fun _ => rfl
    isplitl [HS]; · iexact HS
    iexact Hr
  isplitl [Ho]; · iexact Ho
  isplitl [H0]; · iexact H0
  isplitl [H1]; · iexact H1
  isplitl [H2]; · iexact H2
  iapply (leaves3_3 V c t d3); iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) :
    (Pipeline.scopedRest (Ix := Unit) (Name := ℕ) (U := UR sig nD τ) (Lvl := ℕ) (Val := Elt F) spec3 c : sProp 𝕄) ⊢ (dat3 V c).Φ 0 := by
  rw [show (dat3 V c).Φ 0 = Phi3 V c 0 (Nat.zero_le _) from rfl, scopedRest3_owns]
  unfold Phi3
  iintro ⟨⟨%d, HS⟩, Hr⟩
  iexists d; isplitr; · ipureintro; exact fun hz => absurd rfl hz
  isplitl [HS]; · iexact HS
  iexact Hr

theorem hout3 (c : Dev nD) :
    (dat3 V c).Φ (Fin.last cfg3.N) ⊢ (Pipeline.scopedRest (Ix := Unit) (Name := ℕ) (U := UR sig nD τ) (Lvl := ℕ) (Val := Elt F) spec3 c : sProp 𝕄) := by
  rw [show (dat3 V c).Φ (Fin.last cfg3.N) = Phi3 V c (Fin.last cfg3.N).val (Nat.le_of_lt_succ (Fin.last cfg3.N).isLt) from rfl, scopedRest3_owns]
  unfold Phi3
  iintro ⟨%a, -, HS, Hr⟩
  isplitl [HS]; · iexists a; iexact HS
  iexact Hr

end Cert.KernelIdeal.Hand
end
-- ==== Proof.KIRun.lean ====
import proofs.«118811_j6030134084248_1_alg».proof.Proof.Gen.KernelIdeal.Regions
import proofs.«118811_j6030134084248_1_alg».proof.Proof.KIRegion0
import proofs.«118811_j6030134084248_1_alg».proof.Proof.KIRegion1
import proofs.«118811_j6030134084248_1_alg».proof.Proof.KIRegion2
import proofs.«118811_j6030134084248_1_alg».proof.Proof.KIRegion3
import proofs.«118811_j6030134084248_1_alg».proof.Proof.LibRegions

noncomputable section

namespace Cert.KernelIdeal.Hand

open Cert.KernelIdeal Cert.KernelIdeal.Gen Cert.LibRegions
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 := tcVal (W1 m ρ)
def W2 (c : Dev nD) : Valuation τ sig (Elt F) := leave c (dat0 (V1 m ρ) c) (W1 m ρ c)
abbrev W3 : Dev nD → Valuation τ sig (Elt F) := fun c => StableHlo.after hostOps1 (W2 m ρ c)
abbrev V3 := tcVal (W3 m ρ)
def W4 (c : Dev nD) : Valuation τ sig (Elt F) := leave c (dat1 (V3 m ρ) c) (W3 m ρ c)
abbrev W5 : Dev nD → Valuation τ sig (Elt F) := fun c => StableHlo.after hostOps2 (W4 m ρ c)
abbrev V5 := tcVal (W5 m ρ)
def W6 (c : Dev nD) : Valuation τ sig (Elt F) := leave c (dat2 (V5 m ρ) c) (W5 m ρ c)
abbrev W7 : Dev nD → Valuation τ sig (Elt F) := fun c => StableHlo.after hostOps3 (W6 m ρ c)
abbrev V7 := tcVal (W7 m ρ)
def W8 (c : Dev nD) : Valuation τ sig (Elt F) := leave c (dat3 (V7 m ρ) c) (W7 m ρ c)

theorem W2_arr (c : Dev nD) (w : Fin cfg0.W) :
    W2 m ρ c (Proc.devRef .tc (Pipeline.arrRef spec0 w)) = (dat0 (V1 m ρ) c).arrAt w cfg0.N := leave_arr c _ _ launch0.win.arr_inj w
theorem W4_arr (c : Dev nD) (w : Fin cfg1.W) :
    W4 m ρ c (Proc.devRef .tc (Pipeline.arrRef spec1 w)) = (dat1 (V3 m ρ) c).arrAt w cfg1.N := leave_arr c _ _ launch1.win.arr_inj w
theorem W6_arr (c : Dev nD) (w : Fin cfg2.W) :
    W6 m ρ c (Proc.devRef .tc (Pipeline.arrRef spec2 w)) = (dat2 (V5 m ρ) c).arrAt w cfg2.N := leave_arr c _ _ launch2.win.arr_inj w
theorem W8_arr (c : Dev nD) (w : Fin cfg3.W) :
    W8 m ρ c (Proc.devRef .tc (Pipeline.arrRef spec3 w)) = (dat3 (V7 m ρ) c).arrAt w cfg3.N := leave_arr c _ _ launch3.win.arr_inj w

theorem W1_keep (c : Dev nD) (b : Ref sig .tc) (hb : b ∉ hostOps0_W) : W1 m ρ c b = W0 m ρ c b :=
  StableHlo.after_of_writes_sub hostOps0 _ hostOps0_writes hb
theorem W2_keep (c : Dev nD) (b : Ref sig .tc) (hb : b ≠ main_v1) : W2 m ρ c b = W1 m ρ c b :=
  leave_keep c _ _ launch0.win.arr_inj (A_eq0 _ c) 3 (by decide) b hb
theorem W3_keep (c : Dev nD) (b : Ref sig .tc) (hb : b ∉ hostOps1_W) : W3 m ρ c b = W2 m ρ c b :=
  StableHlo.after_of_writes_sub hostOps1 _ hostOps1_writes hb
theorem W4_keep (c : Dev nD) (b : Ref sig .tc) (hb : b ≠ main_v3) : W4 m ρ c b = W3 m ρ c b :=
  leave_keep c _ _ launch1.win.arr_inj (A_eq1 _ c) 3 (by decide) b hb
theorem W5_keep (c : Dev nD) (b : Ref sig .tc) (hb : b ∉ hostOps2_W) : W5 m ρ c b = W4 m ρ c b :=
  StableHlo.after_of_writes_sub hostOps2 _ hostOps2_writes hb
theorem W6_keep (c : Dev nD) (b : Ref sig .tc) (hb : b ≠ main_v5) : W6 m ρ c b = W5 m ρ c b :=
  leave_keep c _ _ launch2.win.arr_inj (A_eq2 _ c) 3 (by decide) b hb
theorem W7_keep (c : Dev nD) (b : Ref sig .tc) (hb : b ∉ hostOps3_W) : W7 m ρ c b = W6 m ρ c b :=
  StableHlo.after_of_writes_sub hostOps3 _ hostOps3_writes hb
theorem W8_keep (c : Dev nD) (b : Ref sig .tc) (hb : b ≠ main_v7) : W8 m ρ c b = W7 m ρ c b :=
  leave_keep c _ _ launch3.win.arr_inj (A_eq3 _ c) 3 (by decide) b hb

/-- The eight `keep` facts composed: a buffer that is no segment's result still has its launch contents in `W8`. -/
theorem W8_unwritten (c : Dev nD) (b : Ref sig .tc)
    (hb : b ∉ ([main_v0, main_v1, main_v2, main_v3, main_v4, main_v5, main_v6, main_v7] : List (Ref sig .tc))) :
    W8 m ρ c b = m ((c : Thread nD τ).loc b) := by
  simp only [List.mem_cons, List.mem_nil_iff, or_false, not_or] at hb
  obtain ⟨h0, h1, h2, h3, h4, h5, h6, h7⟩ := hb
  exact (W8_keep m ρ c b h7).trans <| (W7_keep m ρ c b (List.mem_singleton.not.2 h6)).trans <| (W6_keep m ρ c b h5).trans <|
    (W5_keep m ρ c b (List.mem_singleton.not.2 h4)).trans <| (W4_keep m ρ c b h3).trans <|
    (W3_keep m ρ c b (List.mem_singleton.not.2 h2)).trans <| (W2_keep m ρ c b h1).trans <| W1_keep m ρ c b (List.mem_singleton.not.2 h0)

def pdats : (p : Fin 4) → (c : Dev nD) → Dat τ (Elt F) Unit ℕ (UR sig nD τ) ℕ (Pipeline.pin (pcfgs (F := F)) adm p) c
  | ⟨0, _⟩ => dat0 (V1 m ρ)
  | ⟨1, _⟩ => dat1 (V3 m ρ)
  | ⟨2, _⟩ => dat2 (V5 m ρ)
  | ⟨3, _⟩ => dat3 (V7 m ρ)
abbrev 𝒱₀ : Variants := Variants.none
abbrev L : GSem nD τ sig → Finset Unit := fun _ => ∅
abbrev lv : GSem nD τ sig → Unit → ℕ := fun _ _ => 0
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev segs : List (Pipeline.Seg (pcfgs (F := F)) adm (pdats m ρ) () defs₀ 𝒱₀ L lv) :=
  [ .host (hseg hostOps0 hostOps0_sub hostOps0_fresh (W0 m ρ)),
    .region (reg (pdats m ρ) 0 launch0 (W1 m ρ) (body_obligation0 _) (hin0 _) (hout0 _) (A_eq0 _)),
    .host (hseg hostOps1 hostOps1_sub hostOps1_fresh (W2 m ρ)),
    .region (reg (pdats m ρ) 1 launch1 (W3 m ρ) (body_obligation1 _) (hin1 _) (hout1 _) (A_eq1 _)),
    .host (hseg hostOps2 hostOps2_sub hostOps2_fresh (W4 m ρ)),
    .region (reg (pdats m ρ) 2 launch2 (W5 m ρ) (body_obligation2 _) (hin2 _) (hout2 _) (A_eq2 _)),
    .host (hseg hostOps3 hostOps3_sub hostOps3_fresh (W6 m ρ)),
    .region (reg (pdats m ρ) 3 launch3 (W7 m ρ) (body_obligation3 _) (hin3 _) (hout3 _) (A_eq3 _)) ]

/-- The eight segments chain from `T W0` to `T W8`, so every fair run of @main ends with each unscoped buffer at `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [show main c = Pipeline.Seg.run (segs m ρ) from (main_chain c).trans (by chain_rfl)])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]; iintro Hu; imodintro
      isplitl [Hu]; · iapply (show (ownU _ : sProp 𝕄) ⊢ BI.own (emb₁ (initOf (Pipeline.cells cfgs cellOf_inj) (Pipeline.launchToks cfgs cellOf_inj))) from .rfl); iexact Hu
      iempintro)
    (T₀ := T (W0 m ρ)) (Tₙ := fun c => iprop(StableHlo.held (c : Thread nD τ) (Pipeline.ucRefs τ sig) (W8 m ρ c) ∗ ∃ r, prngReg c r))
    (hch := ⟨fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c _ = _ from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- No argument array is a segment's result, so `run_all` and `W8_unwritten` give each back as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have k (b : Ref sig .tc) (hs : ¬ (Proc.devRef .tc b : DevRef τ sig).isScoped)
        (hb : b ∉ ([main_v0, main_v1, main_v2, main_v3, main_v4, main_v5, main_v6, main_v7] : List (Ref sig .tc))) :
        r.2.mem ((c.tc : Thread nD τ).loc b) = m ((c.tc : Thread nD τ).loc b) := (h c _ (mem_uc b hs)).trans (W8_unwritten m ρ c b hb)
    ⟨k main_arg0 (by decide) (by decide), k main_arg1 (by decide) (by decide), k main_arg2 (by decide) (by decide),
      k main_arg3 (by decide) (by decide), k main_arg4 (by decide) (by decide), k main_arg5 (by decide) (by decide),
      k main_arg6 (by decide) (by decide), k main_arg7 (by decide) (by decide), k main_arg8 (by decide) (by decide)⟩) (run_all m ρ)

end Cert.KernelIdeal.Hand
end
-- ==== Proof.Spec.lean ====
import Idealize.ShloMosaic.PureOps.Ideal
import Idealize.ShloMosaic.PureOps.Ideal.Laws

noncomputable section

namespace Cert.Spec

open Idealize.ShloMosaic

abbrev c32 : EReal := Ideal.ofBits .f32 0x42000000#32
abbrev cm32 : EReal := Ideal.ofBits .f32 0xC2000000#32
abbrev c31 : EReal := Ideal.ofBits .f32 0x41F80000#32
abbrev ci32 : EReal := Ideal.ofBits .f32 0x3D000000#32
abbrev c64 : EReal := Ideal.ofBits .f32 0x42800000#32
abbrev c0 : EReal := Ideal.ofBits .f32 0x00000000#32
abbrev c63 : EReal := Ideal.ofBits .f32 0x427C0000#32
abbrev ci64 : EReal := Ideal.ofBits .f32 0x3C800000#32

abbrev rnd (x : EReal) : EReal := Ideal.liftRound Ideal.roundHalfEven x

/-- Six signed bits: `clip (round (32 v)) (-32) 31 / 32`. -/
def qs (v : EReal) : EReal := min c31 (max cm32 (rnd (v * c32))) * ci32

/-- Six unsigned bits: `clip (round (64 h)) 0 63 / 64`. -/
def qa (h : EReal) : EReal := min c63 (max c0 (rnd (h * c64))) * ci64

/-- The same two with the rounding written `p + (round p - p)`. -/
def qsR (v : EReal) : EReal := ci32 * min c31 (max cm32 (v * c32 + (rnd (v * c32) - v * c32)))
def qaR (h : EReal) : EReal := ci64 * min c63 (max c0 (h * c64 + (rnd (h * c64) - h * c64)))

def pre {K : ℕ} (q : EReal → EReal) (xr wc : Fin K → EReal) (bj : EReal) : EReal := (∑ k : Fin K, xr k * q (wc k)) + q bj

def out {K : ℕ} (relu : Bool) (xr wc : Fin K → EReal) (bj : EReal) : EReal :=
  if relu then qa (pre qs xr wc bj) else pre qs xr wc bj

def outR {K : ℕ} (relu : Bool) (xr wc : Fin K → EReal) (bj : EReal) : EReal :=
  if relu then qaR (pre qsR xr wc bj) else pre qsR xr wc bj

abbrev Fin' (x : EReal) : Prop := ∃ r : ℝ, x = (r : EReal)

private theorem clip_real (a b : ℝ) (y : EReal) : Fin' (min (a : EReal) (max (b : EReal) y)) := by
  have h1 : min (a : EReal) (max (b : EReal) y) ≠ ⊤ :=
    ne_top_of_le_ne_top (EReal.coe_ne_top a) (min_le_left _ _)
  have h2 : min (a : EReal) (max (b : EReal) y) ≠ ⊥ := by
    have hle : ((min a b : ℝ) : EReal) ≤ min (a : EReal) (max (b : EReal) y) :=
      le_min (EReal.coe_le_coe_iff.mpr (min_le_left a b))
        (le_trans (EReal.coe_le_coe_iff.mpr (min_le_right a b)) (le_max_left _ _))
    exact ne_bot_of_le_ne_bot (EReal.coe_ne_bot _) hle
  exact ⟨_, (EReal.coe_toReal h1 h2).symm⟩

private theorem straight_through (p : ℝ) :
    (p : EReal) + (rnd (p : EReal) - (p : EReal)) = rnd (p : EReal) := by
  show (p : EReal) + (((Ideal.roundHalfEven p : ℝ) : EReal) - (p : EReal)) = ((Ideal.roundHalfEven p : ℝ) : EReal)
  rw [← EReal.coe_sub, ← EReal.coe_add]
  congr 1
  ring

private theorem sum_real {ι : Type*} (s : Finset ι) (f : ι → EReal) (h : ∀ i ∈ s, Fin' (f i)) :
    Fin' (∑ i ∈ s, f i) := by
  classical
  induction s using Finset.induction_on with
  | empty => exact ⟨0, by simp⟩
  | insert a s ha ih =>
    obtain ⟨x, hx⟩ := h a (Finset.mem_insert_self a s)
    obtain ⟨y, hy⟩ := ih (fun i hi => h i (Finset.mem_insert_of_mem hi))
    exact ⟨x + y, by rw [Finset.sum_insert ha, hx, hy, EReal.coe_add]⟩

theorem lit_real : Fin' c32 ∧ Fin' cm32 ∧ Fin' c31 ∧ Fin' ci32 ∧ Fin' c64 ∧ Fin' c0 ∧ Fin' c63 ∧ Fin' ci64 := by
  refine ⟨⟨32, ?_⟩, ⟨-32, ?_⟩, ⟨31, ?_⟩, ⟨1 / 32, ?_⟩, ⟨64, ?_⟩, ⟨0, ?_⟩, ⟨63, ?_⟩, ⟨1 / 64, ?_⟩⟩
  · simp [Ideal.ofBits, Ideal.ieee, -EReal.coe_mul]; norm_num
  · simp [Ideal.ofBits, Ideal.ieee, -EReal.coe_mul]; norm_num
  · simp [Ideal.ofBits, Ideal.ieee, -EReal.coe_mul]; norm_num
  · simp [Ideal.ofBits, Ideal.ieee, -EReal.coe_mul]; norm_num
  · simp [Ideal.ofBits, Ideal.ieee, -EReal.coe_mul]; norm_num
  · simp [Ideal.ofBits, Ideal.ieee]
  · simp [Ideal.ofBits, Ideal.ieee, -EReal.coe_mul]; norm_num
  · simp [Ideal.ofBits, Ideal.ieee, -EReal.coe_mul]; norm_num

theorem qs_real (v : EReal) : Fin' (qs v) := by
  obtain ⟨-, ⟨b, hb⟩, ⟨a, ha⟩, ⟨i, hi⟩, -⟩ := lit_real
  unfold qs
  rw [ha, hb, hi]
  obtain ⟨r, hr⟩ := clip_real a b (rnd (v * c32))
  exact ⟨r * i, by rw [hr, EReal.coe_mul]⟩
theorem qa_real (h : EReal) : Fin' (qa h) := by
  obtain ⟨-, -, -, -, -, ⟨b, hb⟩, ⟨a, ha⟩, ⟨i, hi⟩⟩ := lit_real
  unfold qa
  rw [ha, hb, hi]
  obtain ⟨r, hr⟩ := clip_real a b (rnd (h * c64))
  exact ⟨r * i, by rw [hr, EReal.coe_mul]⟩

/-- At a real `p`, `p + (round p - p) = round p`; at `⊤` the left side is `⊤ - ⊤ = ⊥`, hence the hypothesis. -/
theorem qsR_eq (v : EReal) (hv : Fin' v) : qsR v = qs v := by
  obtain ⟨r, rfl⟩ := hv
  obtain ⟨⟨a, ha⟩, -⟩ := lit_real
  have hp : (r : EReal) * c32 = ((r * a : ℝ) : EReal) := by rw [ha, EReal.coe_mul]
  unfold qsR qs
  rw [hp, straight_through, mul_comm]
theorem qaR_eq (h : EReal) (hh : Fin' h) : qaR h = qa h := by
  obtain ⟨r, rfl⟩ := hh
  obtain ⟨-, -, -, -, ⟨a, ha⟩, -⟩ := lit_real
  have hp : (r : EReal) * c64 = ((r * a : ℝ) : EReal) := by rw [ha, EReal.coe_mul]
  unfold qaR qa
  rw [hp, straight_through, mul_comm]

theorem pre_real {K : ℕ} (xr wc : Fin K → EReal) (bj : EReal) (hx : ∀ k, Fin' (xr k)) : Fin' (pre qs xr wc bj) := by
  unfold pre
  obtain ⟨s, hs⟩ := sum_real Finset.univ (fun k : Fin K => xr k * qs (wc k)) (fun k _ => by
    obtain ⟨x, hx'⟩ := hx k
    obtain ⟨w, hw'⟩ := qs_real (wc k)
    exact ⟨x * w, by rw [hx', hw', EReal.coe_mul]⟩)
  obtain ⟨c, hc⟩ := qs_real bj
  exact ⟨s + c, by rw [hs, hc, EReal.coe_add]⟩

theorem outR_eq {K : ℕ} (relu : Bool) (xr wc : Fin K → EReal) (bj : EReal)
    (hx : ∀ k, Fin' (xr k)) (hw : ∀ k, Fin' (wc k)) (hb : Fin' bj) : outR relu xr wc bj = out relu xr wc bj := by
  have hpre : pre qsR xr wc bj = pre qs xr wc bj := by
    unfold pre
    rw [qsR_eq bj hb]
    congr 1
    exact Finset.sum_congr rfl (fun k _ => by rw [qsR_eq (wc k) (hw k)])
  unfold outR out
  rw [hpre]
  cases relu
  · rfl
  · simp only [if_true]
    exact qaR_eq _ (pre_real xr wc bj hx)

theorem out_relu_real {K : ℕ} (xr wc : Fin K → EReal) (bj : EReal) : Fin' (out true xr wc bj) := by
  unfold out
  simp only [if_true]
  exact qa_real _

def blockAcc {A B : ℕ} (f : Fin (A * B) → EReal) : (a : ℕ) → a ≤ A → EReal
  | 0, _ => 0
  | a + 1, h => blockAcc f a (Nat.le_of_succ_le h) + ∑ k : Fin B, f ⟨a * B + k.val, by
      have : a * B + k.val < (a + 1) * B := by rw [Nat.succ_mul]; exact Nat.add_lt_add_left k.isLt _
      exact lt_of_lt_of_le this (Nat.mul_le_mul_right B h)⟩

private theorem blockAcc_eq_range {A B : ℕ} (f : Fin (A * B) → EReal) (g : ℕ → EReal)
    (hg : ∀ (n : ℕ) (h : n < A * B), g n = f ⟨n, h⟩) :
    ∀ (a : ℕ) (h : a ≤ A), blockAcc f a h = ∑ n ∈ Finset.range (a * B), g n := by
  intro a
  induction a with
  | zero => intro h; simp [blockAcc]
  | succ a ih =>
    intro h
    rw [blockAcc, ih, Nat.succ_mul, Finset.sum_range_add]
    congr 1
    rw [← Fin.sum_univ_eq_sum_range (fun k => g (a * B + k)) B]
    exact Finset.sum_congr rfl (fun k _ => (hg _ _).symm)

/-- Adding `A` runs of `B` terms in order is the sum of all `A * B` terms. -/
theorem blockAcc_eq_sum {A B : ℕ} (f : Fin (A * B) → EReal) : blockAcc f A le_rfl = ∑ k : Fin (A * B), f k := by
  rw [blockAcc_eq_range f (fun n => if h : n < A * B then f ⟨n, h⟩ else 0) (fun n h => dif_pos h) A le_rfl,
    ← Fin.sum_univ_eq_sum_range]
  exact Finset.sum_congr rfl (fun k _ => dif_pos k.isLt)

end Cert.Spec

end
-- ==== Proof.Net.lean ====
import proofs.«118811_j6030134084248_1_alg».proof.Proof.Spec
import Idealize.ShloMosaic.Lib.ValueIdx

noncomputable section

namespace Cert.Spec

open Idealize.ShloMosaic Idealize.ShloMosaic.ValueIdx

def layerAt (relu : Bool) {M K N : ℕ} (X : (⟨2, ![M, K]⟩ : Shape).Idx → EReal) (W : (⟨2, ![K, N]⟩ : Shape).Idx → EReal)
    (b : (⟨1, ![N]⟩ : Shape).Idx → EReal) (r : Fin M) (j : Fin N) : EReal :=
  out relu (fun k : Fin K => X (ix2 r k)) (fun k : Fin K => W (ix2 k j)) (b (ix1 j))

def layerAtR (relu : Bool) {M K N : ℕ} (X : (⟨2, ![M, K]⟩ : Shape).Idx → EReal) (W : (⟨2, ![K, N]⟩ : Shape).Idx → EReal)
    (b : (⟨1, ![N]⟩ : Shape).Idx → EReal) (r : Fin M) (j : Fin N) : EReal :=
  outR relu (fun k : Fin K => X (ix2 r k)) (fun k : Fin K => W (ix2 k j)) (b (ix1 j))

def layer (relu : Bool) {M K N : ℕ} (X : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => layerAt relu X W b (i 0) (i 1)

def layerR (relu : Bool) {M K N : ℕ} (X : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => layerAtR relu X W b (i 0) (i 1)

theorem layer_ix2 (relu : Bool) {M K N : ℕ} (X : (⟨2, ![M, K]⟩ : Shape).Idx → EReal) (W : (⟨2, ![K, N]⟩ : Shape).Idx → EReal)
    (b : (⟨1, ![N]⟩ : Shape).Idx → EReal) (r : Fin M) (j : Fin N) : layer relu X W b (ix2 r j) = layerAt relu X W b r j := rfl

theorem layerR_ix2 (relu : Bool) {M K N : ℕ} (X : (⟨2, ![M, K]⟩ : Shape).Idx → EReal) (W : (⟨2, ![K, N]⟩ : Shape).Idx → EReal)
    (b : (⟨1, ![N]⟩ : Shape).Idx → EReal) (r : Fin M) (j : Fin N) : layerR relu X W b (ix2 r j) = layerAtR relu X W b r j := rfl

abbrev AllReal {S : Shape} (A : S.Idx → EReal) : Prop := ∀ i, Fin' (A i)

theorem layerR_eq (relu : Bool) {M K N : ℕ} (X : (⟨2, ![M, K]⟩ : Shape).Idx → EReal) (W : (⟨2, ![K, N]⟩ : Shape).Idx → EReal)
    (b : (⟨1, ![N]⟩ : Shape).Idx → EReal) (hX : AllReal X) (hW : AllReal W) (hb : AllReal b) :
    layerR relu X W b = layer relu X W b := by
  funext i
  show layerAtR relu X W b (i 0) (i 1) = layerAt relu X W b (i 0) (i 1)
  unfold layerAtR layerAt
  exact outR_eq relu _ _ _ (fun _ => hX _) (fun _ => hW _) (hb _)

theorem layer_relu_real {M K N : ℕ} (X : (⟨2, ![M, K]⟩ : Shape).Idx → EReal) (W : (⟨2, ![K, N]⟩ : Shape).Idx → EReal)
    (b : (⟨1, ![N]⟩ : Shape).Idx → EReal) : AllReal (layer true X W b) := by
  intro i
  show Fin' (layerAt true X W b (i 0) (i 1))
  unfold layerAt
  exact out_relu_real _ _ _

def net (x : (⟨2, ![8192, 128]⟩ : Shape).Idx → EReal)
    (W0 : (⟨2, ![128, 1024]⟩ : Shape).Idx → EReal) (b0 : (⟨1, ![1024]⟩ : Shape).Idx → EReal)
    (W1 : (⟨2, ![1024, 2048]⟩ : Shape).Idx → EReal) (b1 : (⟨1, ![2048]⟩ : Shape).Idx → EReal)
    (W2 : (⟨2, ![2048, 4096]⟩ : Shape).Idx → EReal) (b2 : (⟨1, ![4096]⟩ : Shape).Idx → EReal)
    (W3 : (⟨2, ![4096, 4096]⟩ : Shape).Idx → EReal) (b3 : (⟨1, ![4096]⟩ : Shape).Idx → EReal) :
    (⟨2, ![8192, 4096]⟩ : Shape).Idx → EReal :=
  layer false (layer true (layer true (layer true x W0 b0) W1 b1) W2 b2) W3 b3

def netR (x : (⟨2, ![8192, 128]⟩ : Shape).Idx → EReal)
    (W0 : (⟨2, ![128, 1024]⟩ : Shape).Idx → EReal) (b0 : (⟨1, ![1024]⟩ : Shape).Idx → EReal)
    (W1 : (⟨2, ![1024, 2048]⟩ : Shape).Idx → EReal) (b1 : (⟨1, ![2048]⟩ : Shape).Idx → EReal)
    (W2 : (⟨2, ![2048, 4096]⟩ : Shape).Idx → EReal) (b2 : (⟨1, ![4096]⟩ : Shape).Idx → EReal)
    (W3 : (⟨2, ![4096, 4096]⟩ : Shape).Idx → EReal) (b3 : (⟨1, ![4096]⟩ : Shape).Idx → EReal) :
    (⟨2, ![8192, 4096]⟩ : Shape).Idx → EReal :=
  layerR false (layerR true (layerR true (layerR true x W0 b0) W1 b1) W2 b2) W3 b3

/-- A layer's output is a quantized value, hence real, so finiteness of the arguments carries through all four layers. -/
theorem netR_eq (x : (⟨2, ![8192, 128]⟩ : Shape).Idx → EReal)
    (W0 : (⟨2, ![128, 1024]⟩ : Shape).Idx → EReal) (b0 : (⟨1, ![1024]⟩ : Shape).Idx → EReal)
    (W1 : (⟨2, ![1024, 2048]⟩ : Shape).Idx → EReal) (b1 : (⟨1, ![2048]⟩ : Shape).Idx → EReal)
    (W2 : (⟨2, ![2048, 4096]⟩ : Shape).Idx → EReal) (b2 : (⟨1, ![4096]⟩ : Shape).Idx → EReal)
    (W3 : (⟨2, ![4096, 4096]⟩ : Shape).Idx → EReal) (b3 : (⟨1, ![4096]⟩ : Shape).Idx → EReal)
    (hx : AllReal x) (hW0 : AllReal W0) (hb0 : AllReal b0) (hW1 : AllReal W1) (hb1 : AllReal b1)
    (hW2 : AllReal W2) (hb2 : AllReal b2) (hW3 : AllReal W3) (hb3 : AllReal b3) :
    netR x W0 b0 W1 b1 W2 b2 W3 b3 = net x W0 b0 W1 b1 W2 b2 W3 b3 := by
  unfold netR net
  rw [layerR_eq true x W0 b0 hx hW0 hb0,
    layerR_eq true _ W1 b1 (layer_relu_real x W0 b0) hW1 hb1,
    layerR_eq true _ W2 b2 (layer_relu_real _ W1 b1) hW2 hb2,
    layerR_eq false _ W3 b3 (layer_relu_real _ W2 b2) hW3 hb3]

end Cert.Spec

end
-- ==== Proof.LibReshape.lean ====
import Idealize.ShloMosaic.Lib.ValueLayout

namespace Cert.LibReshape

open Idealize.ShloMosaic Idealize.ShloMosaic.ValueIdx

/-- A vector of length n cast to a row [1, n] reads, at (0, q), the vector's entry q. -/
theorem shapeCast_row_apply {α : Type} {n : ℕ} (v : (⟨1, ![n]⟩ : Shape).Idx → α) (h : (⟨1, ![n]⟩ : Shape).ShapeCasts ⟨2, ![1, n]⟩)
    (q : Fin n) : shapeCast ⟨2, ![1, n]⟩ v h (ix2 (0 : Fin 1) q) = v (ix1 q) :=
  shapeCast_a_1a_apply v h 0 q

end Cert.LibReshape
-- ==== Proof.KINet.lean ====
import proofs.«118811_j6030134084248_1_alg».proof.Proof.KIRun
import proofs.«118811_j6030134084248_1_alg».proof.Proof.Net
import proofs.«118811_j6030134084248_1_alg».proof.Proof.LibReshape
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

abbrev Unwritten (b : Ref sig .tc) : Prop := b ∉ ([main_v0, main_v1, main_v2, main_v3, main_v4, main_v5, main_v6, main_v7] : List (Ref sig .tc))

theorem unwritten_ne {b : Ref sig .tc} (hb : Unwritten b) :
    b ≠ main_v0 ∧ b ≠ main_v1 ∧ b ≠ main_v2 ∧ b ≠ main_v3 ∧ b ≠ main_v4 ∧ b ≠ main_v5 ∧ b ≠ main_v6 ∧ b ≠ main_v7 := by
  simpa only [Unwritten, List.mem_cons, List.mem_nil_iff, or_false, not_or] using hb

theorem W1_unwritten (c : Dev nD) (b : Ref sig .tc) (hb : Unwritten b) : W1 m ρ c (Proc.devRef .tc b) = m ((c : Thread nD τ).loc b) :=
  (W1_keep m ρ c b (by simp only [hostOps0_W, List.mem_cons, List.mem_nil_iff, or_false]; exact (unwritten_ne hb).1)).trans rfl
theorem W2_unwritten (c : Dev nD) (b : Ref sig .tc) (hb : Unwritten b) : W2 m ρ c (Proc.devRef .tc b) = m ((c : Thread nD τ).loc b) :=
  (W2_keep m ρ c b (unwritten_ne hb).2.1).trans (W1_unwritten m ρ c b hb)
theorem W3_unwritten (c : Dev nD) (b : Ref sig .tc) (hb : Unwritten b) : W3 m ρ c (Proc.devRef .tc b) = m ((c : Thread nD τ).loc b) :=
  (W3_keep m ρ c b (by simp only [hostOps1_W, List.mem_cons, List.mem_nil_iff, or_false]; exact (unwritten_ne hb).2.2.1)).trans (W2_unwritten m ρ c b hb)
theorem W4_unwritten (c : Dev nD) (b : Ref sig .tc) (hb : Unwritten b) : W4 m ρ c (Proc.devRef .tc b) = m ((c : Thread nD τ).loc b) :=
  (W4_keep m ρ c b (unwritten_ne hb).2.2.2.1).trans (W3_unwritten m ρ c b hb)
theorem W5_unwritten (c : Dev nD) (b : Ref sig .tc) (hb : Unwritten b) : W5 m ρ c (Proc.devRef .tc b) = m ((c : Thread nD τ).loc b) :=
  (W5_keep m ρ c b (by simp only [hostOps2_W, List.mem_cons, List.mem_nil_iff, or_false]; exact (unwritten_ne hb).2.2.2.2.1)).trans (W4_unwritten m ρ c b hb)
theorem W6_unwritten (c : Dev nD) (b : Ref sig .tc) (hb : Unwritten b) : W6 m ρ c (Proc.devRef .tc b) = m ((c : Thread nD τ).loc b) :=
  (W6_keep m ρ c b (unwritten_ne hb).2.2.2.2.2.1).trans (W5_unwritten m ρ c b hb)
theorem W7_unwritten (c : Dev nD) (b : Ref sig .tc) (hb : Unwritten b) : W7 m ρ c (Proc.devRef .tc b) = m ((c : Thread nD τ).loc b) :=
  (W7_keep m ρ c b (by simp only [hostOps3_W, List.mem_cons, List.mem_nil_iff, or_false]; exact (unwritten_ne hb).2.2.2.2.2.2.1)).trans (W6_unwritten m ρ c b hb)

theorem brow0 (c : Dev nD) (j : Fin 1024) :
    V1 m ρ c main_v0 (ValueIdx.ix2 (0 : Fin 1) j) = m ((c : Thread nD τ).loc main_arg2) (ValueIdx.ix1 j) := by
  have e : (V1 m ρ c main_v0 : S1x1024.Idx → EReal) = shapeCast S1x1024 (W0 m ρ c (Proc.devRef .tc main_arg2)) shapeCasts_S1024_S1x1024 := by
    show StableHlo.after hostOps0 (W0 m ρ c) (Proc.devRef .tc main_v0) = _
    after_results; rfl
  rw [e]
  exact Cert.LibReshape.shapeCast_row_apply _ _ j
theorem brow1 (c : Dev nD) (j : Fin 2048) :
    V3 m ρ c main_v2 (ValueIdx.ix2 (0 : Fin 1) j) = m ((c : Thread nD τ).loc main_arg4) (ValueIdx.ix1 j) := by
  have e : (V3 m ρ c main_v2 : S1x2048.Idx → EReal) = shapeCast S1x2048 (W2 m ρ c (Proc.devRef .tc main_arg4)) shapeCasts_S2048_S1x2048 := by
    show StableHlo.after hostOps1 (W2 m ρ c) (Proc.devRef .tc main_v2) = _
    after_results; rfl
  rw [e, W2_unwritten m ρ c main_arg4 (by decide)]
  exact Cert.LibReshape.shapeCast_row_apply _ _ j
theorem brow2 (c : Dev nD) (j : Fin 4096) :
    V5 m ρ c main_v4 (ValueIdx.ix2 (0 : Fin 1) j) = m ((c : Thread nD τ).loc main_arg6) (ValueIdx.ix1 j) := by
  have e : (V5 m ρ c main_v4 : S1x4096.Idx → EReal) = shapeCast S1x4096 (W4 m ρ c (Proc.devRef .tc main_arg6)) shapeCasts_S4096_S1x4096 := by
    show StableHlo.after hostOps2 (W4 m ρ c) (Proc.devRef .tc main_v4) = _
    after_results; rfl
  rw [e, W4_unwritten m ρ c main_arg6 (by decide)]
  exact Cert.LibReshape.shapeCast_row_apply _ _ j
theorem brow3 (c : Dev nD) (j : Fin 4096) :
    V7 m ρ c main_v6 (ValueIdx.ix2 (0 : Fin 1) j) = m ((c : Thread nD τ).loc main_arg8) (ValueIdx.ix1 j) := by
  have e : (V7 m ρ c main_v6 : S1x4096.Idx → EReal) = shapeCast S1x4096 (W6 m ρ c (Proc.devRef .tc main_arg8)) shapeCasts_S4096_S1x4096 := by
    show StableHlo.after hostOps3 (W6 m ρ c) (Proc.devRef .tc main_v6) = _
    after_results; rfl
  rw [e, W6_unwritten m ρ c main_arg8 (by decide)]
  exact Cert.LibReshape.shapeCast_row_apply _ _ j

theorem brow_fun {n : ℕ} (row : (⟨2, ![1, n]⟩ : Shape).Idx → EReal) (v : (⟨1, ![n]⟩ : Shape).Idx → EReal)
    (h : ∀ j : Fin n, row (ValueIdx.ix2 (0 : Fin 1) j) = v (ValueIdx.ix1 j)) :
    (fun j : (⟨1, ![n]⟩ : Shape).Idx => row (ValueIdx.ix2 (0 : Fin 1) (j 0))) = v :=
  funext fun j => (h (j 0)).trans (congrArg v (ValueIdx.eq_ix1 j).symm)

section Layers

variable (H0 : (∀ (V : (c : Dev nD) → (b : Ref sig .tc) → Buf (Elt Ideal) ((c : Thread nD τ).loc b)) (c : Dev nD),
      (dat0 (F := Ideal) V c).arrAt 3 cfg0.N
        = Cert.Spec.layer true (V c main_arg0) (V c main_arg1) (fun j => V c main_v0 (ValueIdx.ix2 (0 : Fin 1) (j 0)))))
  (H1 : (∀ (V : (c : Dev nD) → (b : Ref sig .tc) → Buf (Elt Ideal) ((c : Thread nD τ).loc b)) (c : Dev nD),
      (dat1 (F := Ideal) V c).arrAt 3 cfg1.N
        = Cert.Spec.layer true (V c main_v1) (V c main_arg3) (fun j => V c main_v2 (ValueIdx.ix2 (0 : Fin 1) (j 0)))))
  (H2 : (∀ (V : (c : Dev nD) → (b : Ref sig .tc) → Buf (Elt Ideal) ((c : Thread nD τ).loc b)) (c : Dev nD),
      (dat2 (F := Ideal) V c).arrAt 3 cfg2.N
        = Cert.Spec.layer true (V c main_v3) (V c main_arg5) (fun j => V c main_v4 (ValueIdx.ix2 (0 : Fin 1) (j 0)))))
  (H3 : (∀ (V : (c : Dev nD) → (b : Ref sig .tc) → Buf (Elt Ideal) ((c : Thread nD τ).loc b)) (c : Dev nD),
      (dat3 (F := Ideal) V c).arrAt 3 cfg3.N
        = Cert.Spec.layer false (V c main_v5) (V c main_arg7) (fun j => V c main_v6 (ValueIdx.ix2 (0 : Fin 1) (j 0)))))

abbrev ax (c : Dev nD) : (⟨2, ![8192, 128]⟩ : Shape).Idx → EReal := m ((c : Thread nD τ).loc main_arg0)
abbrev aW0 (c : Dev nD) : (⟨2, ![128, 1024]⟩ : Shape).Idx → EReal := m ((c : Thread nD τ).loc main_arg1)
abbrev ab0 (c : Dev nD) : (⟨1, ![1024]⟩ : Shape).Idx → EReal := m ((c : Thread nD τ).loc main_arg2)
abbrev aW1 (c : Dev nD) : (⟨2, ![1024, 2048]⟩ : Shape).Idx → EReal := m ((c : Thread nD τ).loc main_arg3)
abbrev ab1 (c : Dev nD) : (⟨1, ![2048]⟩ : Shape).Idx → EReal := m ((c : Thread nD τ).loc main_arg4)
abbrev aW2 (c : Dev nD) : (⟨2, ![2048, 4096]⟩ : Shape).Idx → EReal := m ((c : Thread nD τ).loc main_arg5)
abbrev ab2 (c : Dev nD) : (⟨1, ![4096]⟩ : Shape).Idx → EReal := m ((c : Thread nD τ).loc main_arg6)
abbrev aW3 (c : Dev nD) : (⟨2, ![4096, 4096]⟩ : Shape).Idx → EReal := m ((c : Thread nD τ).loc main_arg7)
abbrev ab3 (c : Dev nD) : (⟨1, ![4096]⟩ : Shape).Idx → EReal := m ((c : Thread nD τ).loc main_arg8)

include H0 in

theorem h1_eq (c : Dev nD) : (W2 m ρ c (Proc.devRef .tc main_v1) : (⟨2, ![8192, 1024]⟩ : Shape).Idx → EReal)
    = Cert.Spec.layer true (ax m c) (aW0 m c) (ab0 m c) := by
  refine ((W2_arr m ρ c 3).trans (H0 (V1 m ρ) c)).trans ?_
  rw [show V1 m ρ c main_arg0 = m ((c : Thread nD τ).loc main_arg0) from W1_unwritten m ρ c main_arg0 (by decide),
    show V1 m ρ c main_arg1 = m ((c : Thread nD τ).loc main_arg1) from W1_unwritten m ρ c main_arg1 (by decide),
    brow_fun (V1 m ρ c main_v0) (ab0 m c) (brow0 m ρ c)]

include H0 H1 in

theorem h2_eq (c : Dev nD) : (W4 m ρ c (Proc.devRef .tc main_v3) : (⟨2, ![8192, 2048]⟩ : Shape).Idx → EReal)
    = Cert.Spec.layer true (Cert.Spec.layer true (ax m c) (aW0 m c) (ab0 m c)) (aW1 m c) (ab1 m c) := by
  refine ((W4_arr m ρ c 3).trans (H1 (V3 m ρ) c)).trans ?_
  rw [show V3 m ρ c main_v1 = W2 m ρ c (Proc.devRef .tc main_v1) from W3_keep m ρ c main_v1 (by decide),
    h1_eq m ρ H0 c,
    show V3 m ρ c main_arg3 = m ((c : Thread nD τ).loc main_arg3) from W3_unwritten m ρ c main_arg3 (by decide),
    brow_fun (V3 m ρ c main_v2) (ab1 m c) (brow1 m ρ c)]

include H0 H1 H2 in

theorem h3_eq (c : Dev nD) : (W6 m ρ c (Proc.devRef .tc main_v5) : (⟨2, ![8192, 4096]⟩ : Shape).Idx → EReal)
    = Cert.Spec.layer true (Cert.Spec.layer true (Cert.Spec.layer true (ax m c) (aW0 m c) (ab0 m c)) (aW1 m c) (ab1 m c)) (aW2 m c) (ab2 m c) := by
  refine ((W6_arr m ρ c 3).trans (H2 (V5 m ρ) c)).trans ?_
  rw [show V5 m ρ c main_v3 = W4 m ρ c (Proc.devRef .tc main_v3) from W5_keep m ρ c main_v3 (by decide),
    h2_eq m ρ H0 H1 c,
    show V5 m ρ c main_arg5 = m ((c : Thread nD τ).loc main_arg5) from W5_unwritten m ρ c main_arg5 (by decide),
    brow_fun (V5 m ρ c main_v4) (ab2 m c) (brow2 m ρ c)]

include H0 H1 H2 H3 in

/-- The four layers chained: no segment writes an argument array or an earlier layer's output, so each layer reads what the one before left. -/
theorem result_eq (c : Dev nD) : (W8 m ρ c (Proc.devRef .tc main_v7) : (⟨2, ![8192, 4096]⟩ : Shape).Idx → EReal)
    = Cert.Spec.net (ax m c) (aW0 m c) (ab0 m c) (aW1 m c) (ab1 m c) (aW2 m c) (ab2 m c) (aW3 m c) (ab3 m c) := by
  refine ((W8_arr m ρ c 3).trans (H3 (V7 m ρ) c)).trans ?_
  rw [show V7 m ρ c main_v5 = W6 m ρ c (Proc.devRef .tc main_v5) from W7_keep m ρ c main_v5 (by decide),
    h3_eq m ρ H0 H1 H2 c,
    show V7 m ρ c main_arg7 = m ((c : Thread nD τ).loc main_arg7) from W7_unwritten m ρ c main_arg7 (by decide),
    brow_fun (V7 m ρ c main_v6) (ab3 m c) (brow3 m ρ c)]
  rfl

include H0 H1 H2 H3 in

theorem run_value : θ_run defs (onTc (τ := τ) (main (F := Ideal))) ⟨m, fun _ => 0, ρ⟩ (fun r => ∀ c : Dev nD,
      r.2.mem ((c.tc : Thread nD τ).loc main_v7) = Cert.Spec.net (ax m c) (aW0 m c) (ab0 m c) (aW1 m c) (ab1 m c) (aW2 m c) (ab2 m c) (aW3 m c) (ab3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_v7 (by decide))).trans (result_eq m ρ H0 H1 H2 H3 c),
    (h c _ (mem_uc main_arg0 (by decide))).trans (W8_unwritten m ρ c main_arg0 (by decide)),
    (h c _ (mem_uc main_arg1 (by decide))).trans (W8_unwritten m ρ c main_arg1 (by decide)),
    (h c _ (mem_uc main_arg2 (by decide))).trans (W8_unwritten m ρ c main_arg2 (by decide)),
    (h c _ (mem_uc main_arg3 (by decide))).trans (W8_unwritten m ρ c main_arg3 (by decide)),
    (h c _ (mem_uc main_arg4 (by decide))).trans (W8_unwritten m ρ c main_arg4 (by decide)),
    (h c _ (mem_uc main_arg5 (by decide))).trans (W8_unwritten m ρ c main_arg5 (by decide)),
    (h c _ (mem_uc main_arg6 (by decide))).trans (W8_unwritten m ρ c main_arg6 (by decide)),
    (h c _ (mem_uc main_arg7 (by decide))).trans (W8_unwritten m ρ c main_arg7 (by decide)),
    (h c _ (mem_uc main_arg8 (by decide))).trans (W8_unwritten m ρ c main_arg8 (by decide))⟩) (run_all m ρ)

end Layers

end Cert.KernelIdeal.Hand

end
-- ==== Proof.LibPlainDot.lean ====
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

/-- The plain [M, K] by [K, N] product into the zero block reads ∑ₖ lhs (p, k) · rhs (k, j) at (p, j). -/
theorem matmul_plain_apply {M K N : Nat} {φ₁ φ₂ : FTy} (prec : Option ContractPrecision)
    (lhs : FVec Ideal ⟨2, ![M, K]⟩ φ₁) (rhs : FVec Ideal ⟨2, ![K, N]⟩ φ₂) (p : Fin M) (j : Fin N) :
    FloatOps.matmul (DotDims.plain M K N) prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  rw [show (DotDims.plain M K N).lhsIdx (ix2 p j) ((contrEquiv1 _ K rfl rfl).symm k) = ix2 p k from Shape.idx_ext₂ rfl hk,
    show (DotDims.plain M K N).rhsIdx (ix2 p j) ((contrEquiv1 _ K rfl rfl).symm k) = ix2 k j from Shape.idx_ext₂ hk rfl]

end Cert.Lib

end
-- ==== Proof.LibTile.lean ====
import proofs.«118811_j6030134084248_1_alg».proof.Proof.Spec
import Idealize.ShloMosaic.Lib.Pipeline.Value

noncomputable section

namespace Cert.Lib

open Idealize.ShloMosaic Idealize.SL.Sem Cert.Spec

section Block

variable {sig : RefSig} {κ : Kind} (b : Ref sig κ) {off size : Fin b.ty.shape.rank → ℕ}
  (inb : ∀ a, off a + size a ≤ b.ty.shape.size a) {o : Fin b.ty.shape.rank → ℕ} (ho : ∀ a, off a = o a)
include ho

/-- What a unit-stride block of a whole array reads at `y` is the array's entry at the block's offsets plus `y`. -/
theorem eq_read_block {Val : EltTy → Type} (X : b.ty.Contents Val) (y : (Rect.unit off size inb).shape.Idx) (v : Val b.ty.elt)
    (h : ∀ k : b.ty.shape.Idx, (∀ a, (k a : ℕ) = o a + y a) → v = X k) :
    v = ((View.whole b).slice (Rect.unit off size inb)).read Val X y :=
  h ((Rect.unit off size inb).emb y) fun a => by rw [Rect.emb_apply, ← ho a]; exact congrArg _ (Nat.one_mul _)

/-- The same with the index named by the caller. -/
theorem read_block {Val : EltTy → Type} (X : b.ty.Contents Val) (y : (Rect.unit off size inb).shape.Idx) (k : b.ty.shape.Idx)
    (hk : ∀ a, (k a : ℕ) = o a + y a) : ((View.whole b).slice (Rect.unit off size inb)).read Val X y = X k :=
  (eq_read_block b inb ho X y (X k) fun _ hk' => congrArg X (funext fun a => Fin.ext ((hk a).trans (hk' a).symm))).symm

/-- An index lies in such a block iff each coordinate is in the block's range on its axis. -/
theorem mem_block (i : b.ty.shape.Idx) :
    i ∈ ((View.whole b).slice (Rect.unit off size inb)).set ↔ ∀ a, o a ≤ i a ∧ (i a : ℕ) < o a + size a := by
  rw [View.set_slice_whole, Rect.mem_set_unit]
  exact forall_congr' fun a => by rw [ho a]

end Block

theorem run_lt {A B a k : ℕ} (h : a + 1 ≤ A) (hk : k < B) : a * B + k < A * B := by
  have := Nat.mul_le_mul_right B h
  rw [Nat.succ_mul] at this
  omega

private theorem blockAcc_cast {A B : ℕ} (f : Fin (A * B) → EReal) :
    ∀ {a a' : ℕ} (_ : a = a') (h : a ≤ A) (h' : a' ≤ A), blockAcc f a h = blockAcc f a' h'
  | _, _, rfl, _, _ => rfl

/-- An accumulator restarted at each first K-step and fed one run of `B` terms of `f` per K-step ends at the whole sum of `f`. -/
theorem acc_last {A B Npts : ℕ} (f : Fin (A * B) → EReal) (acc s : (n : ℕ) → n < Npts → EReal) (κ : ℕ → ℕ) (P : ℕ → Prop)
    (hκ : κ 0 = 0) (hstep : ∀ n, κ (n + 1) ≠ 0 → κ (n + 1) = κ n + 1 ∧ (P (n + 1) → P n))
    (h0 : ∀ n hn, κ n = 0 → acc n hn = s n hn)
    (h1 : ∀ n hn, κ (n + 1) ≠ 0 → acc (n + 1) hn = acc n (Nat.lt_of_succ_lt hn) + s (n + 1) hn)
    (hs : ∀ n hn (h : κ n + 1 ≤ A), P n → s n hn = ∑ k : Fin B, f ⟨κ n * B + k.val, run_lt h k.isLt⟩)
    (n : ℕ) (hn : n < Npts) (hl : κ n + 1 = A) (hP : P n) : acc n hn = ∑ k, f k := by
  have first : ∀ n hn (h : κ n + 1 ≤ A), κ n = 0 → P n → acc n hn = blockAcc f (κ n + 1) h := fun n hn h hz hP => by
    rw [h0 n hn hz, hs n hn h hP]
    exact (zero_add _).symm.trans (congrArg (· + _) (blockAcc_cast f hz.symm (Nat.zero_le _) _))
  have run : ∀ n hn (h : κ n + 1 ≤ A), P n → acc n hn = blockAcc f (κ n + 1) h := by
    intro n
    induction n with
    | zero => exact fun hn h => first 0 hn h hκ
    | succ m ih =>
      intro hn h hP
      by_cases hz : κ (m + 1) = 0
      · exact first _ hn h hz hP
      · obtain ⟨e, hPm⟩ := hstep m hz
        rw [h1 m hn hz, hs (m + 1) hn h hP, ih (Nat.lt_of_succ_lt hn) (by omega) (hPm hP)]
        exact congrArg (· + _) (blockAcc_cast f e.symm _ _)
  exact (run n hn hl.le hP).trans ((blockAcc_cast f hl _ le_rfl).trans (blockAcc_eq_sum f))

end Cert.Lib

end
-- ==== Proof.KIValue0.lean ====
import proofs.«118811_j6030134084248_1_alg».proof.Proof.KIRegion0
import proofs.«118811_j6030134084248_1_alg».proof.Proof.Net
import proofs.«118811_j6030134084248_1_alg».proof.Proof.LibPlainDot
import proofs.«118811_j6030134084248_1_alg».proof.Proof.LibTile
import Idealize.ShloMosaic.Lib.ValueLayout

noncomputable section

namespace Cert.KernelIdeal.Hand

open Cert.KernelIdeal Cert.KernelIdeal.Gen Cert.Spec
open Idealize.ShloMosaic Idealize.ShloMosaic.TcCoe Idealize.SL.Sem
open Idealize.ShloMosaic.Pipeline (Dat)

namespace Value0

open Idealize.ShloMosaic.ValueIdx

/-- Each window's block offsets at point `t`: row block `t` of the input and the output, the whole weights and bias row. -/
theorem off_facts : ∀ t : Fin cfg0.N,
    (∀ a : Fin 2, win0_0.index t a * win0_0.size a = ![512 * t.val, 0] a)
    ∧ (∀ a : Fin 2, win0_1.index t a * win0_1.size a = ![0, 0] a)
    ∧ (∀ a : Fin 2, win0_2.index t a * win0_2.size a = ![0, 0] a)
    ∧ (∀ a : Fin 2, win0_3.index t a * win0_3.size a = ![512 * t.val, 0] a) :=
  (by decide +kernel : ∀ t : Fin grid0.N, _)

variable (V : (c : Dev nD) → (b : Ref sig .tc) → Buf (Elt Ideal) ((c : Thread nD τ).loc b))

abbrev X (c : Dev nD) : S8192x128.Idx → EReal := V c main_arg0
abbrev W (c : Dev nD) : S128x1024.Idx → EReal := V c main_arg1
abbrev B (c : Dev nD) : S1x1024.Idx → EReal := V c main_v0

theorem xblk_apply (c : Dev nD) (t : Fin cfg0.N) (p : Fin 512) (k : Fin 128) (r : Fin 8192)
    (hr : r.val = 512 * t.val + p.val) : xblk0 V c t (ix2 p k) = X V c (ix2 r k) :=
  Cert.Lib.read_block main_arg0 _ (off_facts t).1 _ _ _ (Fin.forall_fin_two.mpr ⟨hr, (Nat.zero_add _).symm⟩)

theorem wblk_apply (c : Dev nD) (t : Fin cfg0.N) (k : Fin 128) (q : Fin 1024) : wblk0 V c t (ix2 k q) = W V c (ix2 k q) :=
  Cert.Lib.read_block main_arg1 _ (off_facts t).2.1 _ _ _ (Fin.forall_fin_two.mpr ⟨(Nat.zero_add _).symm, (Nat.zero_add _).symm⟩)

theorem bblk_apply (c : Dev nD) (t : Fin cfg0.N) (q : Fin 1024) : bblk0 V c t (ix2 (0 : Fin 1) q) = B V c (ix2 (0 : Fin 1) q) :=
  Cert.Lib.read_block main_v0 _ (off_facts t).2.2.1 _ _ _ (Fin.forall_fin_two.mpr ⟨(Nat.zero_add _).symm, (Nat.zero_add _).symm⟩)

theorem pay1_apply (i : S512x1024.Idx) : k0_pay1 (F := Ideal) i = 0 := by
  unfold k0_pay1
  exact (congrFun (shapeCast_self _ _) i).trans Ideal.ofBits_zero_f32

/-- The one K-step adds the input block's row against the quantized weight block's column. -/
theorem pay2_apply (w : Vec Ideal S128x1024 .f32) (x : Vec Ideal S512x128 .f32) (a : Vec Ideal S512x1024 .f32)
    (p : Fin 512) (q : Fin 1024) :
    k0_pay2 w x a (ix2 p q) = a (ix2 p q) + ∑ k : Fin 128, x (ix2 p k) * qs (w (ix2 k q)) := by
  unfold k0_pay2
  simp only [shapeCast_self]
  exact congrArg (a (ix2 p q) + ·) (Cert.Lib.matmul_plain_apply none _ _ p q)

theorem pay3_apply (b : Vec Ideal S1x1024 .f32) (a : Vec Ideal S512x1024 .f32) (p : Fin 512) (q : Fin 1024) :
    k0_pay3 b a (ix2 p q) = qa (a (ix2 p q) + qs (b (ix2 (0 : Fin 1) q))) := by
  unfold k0_pay3
  simp only [shapeCast_self]
  exact congrArg (fun z => qa (a (ix2 p q) + z)) (broadcastTo_1b_ab_apply _ _ p q)

abbrev G (c : Dev nD) : S8192x1024.Idx → EReal := layer true (X V c) (W V c) (fun j => B V c (ix2 (0 : Fin 1) (j 0)))

/-- What a point writes back is its block of the layer: the one K-step over the zero block is the whole contraction. -/
theorem flushed_eq (c : Dev nD) (t : Fin cfg0.N) (_ : (cfg0.win 3).flush t = true) :
    (dat0 (F := Ideal) V c).flushed 3 t = ((cfg0.win 3).blk t).view.read (Elt Ideal) (G V c) := by
  show (cfg0.win 3).cut (grid0.coords t) ((dat0 V c).after 3 t) = _
  rw [after0_3]
  funext y
  obtain ⟨p, q, rfl⟩ : ∃ (p : Fin 512) (q : Fin 1024), y = ix2 p q := ⟨y 0, y 1, eq_ix2 y⟩
  refine Cert.Lib.eq_read_block main_v1 _ (off_facts t).2.2.2 _ _ _ fun i hi => ?_
  obtain ⟨r, j, rfl⟩ : ∃ (r : Fin 8192) (j : Fin 1024), i = ix2 r j := ⟨i 0, i 1, eq_ix2 i⟩
  obtain rfl : j = q := Fin.ext ((hi (1 : Fin 2)).trans (Nat.zero_add _))
  show k0_pay3 (bblk0 V c t) (accAt0 V c t.val t.isLt) (ix2 p j) = _
  unfold accAt0
  rw [pay3_apply, pay2_apply, pay1_apply, zero_add, bblk_apply]
  exact congrArg (fun z => qa (z + _)) (Finset.sum_congr rfl fun k _ =>
    congrArg₂ (· * ·) (xblk_apply V c t p k r (hi (0 : Fin 2))) (congrArg qs (wblk_apply V c t k j)))

/-- Row `r` lies in the block of the point `r / 512`. -/
theorem cover (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  obtain ⟨n, hn⟩ : ∃ n, n = (i 0).val / 512 := ⟨_, rfl⟩
  have ht : n < cfg0.N := by show n < 16; omega
  refine ⟨⟨n, ht⟩, flush0_3 _, (Cert.Lib.mem_block main_v1 _ (off_facts ⟨n, ht⟩).2.2.2 i).mpr (Fin.forall_fin_two.mpr ⟨?_, ?_⟩)⟩
  · show 512 * n ≤ (i 0).val ∧ (i 0).val < 512 * n + 512; omega
  · show 0 ≤ (i 1).val ∧ (i 1).val < 0 + 1024; omega

end Value0

theorem final0 (V : (c : Dev nD) → (b : Ref sig .tc) → Buf (Elt Ideal) ((c : Thread nD τ).loc b)) (c : Dev nD) :
    (dat0 (F := Ideal) V c).arrAt 3 cfg0.N
      = Cert.Spec.layer true (V c main_arg0) (V c main_arg1) (fun j => V c main_v0 (ValueIdx.ix2 (0 : Fin 1) (j 0))) :=
  (dat0 (F := Ideal) V c).arrAt_eq_of_cover 3 _ (Value0.flushed_eq V c) Value0.cover

end Cert.KernelIdeal.Hand

end
-- ==== Proof.KIValue1.lean ====
import proofs.«118811_j6030134084248_1_alg».proof.Proof.KIRegion1
import proofs.«118811_j6030134084248_1_alg».proof.Proof.Net
import proofs.«118811_j6030134084248_1_alg».proof.Proof.LibPlainDot
import proofs.«118811_j6030134084248_1_alg».proof.Proof.LibTile
import Idealize.ShloMosaic.Lib.ValueLayout

noncomputable section

namespace Cert.KernelIdeal.Hand

open Cert.KernelIdeal Cert.KernelIdeal.Gen Cert.Spec
open Idealize.ShloMosaic Idealize.ShloMosaic.TcCoe Idealize.SL.Sem
open Idealize.ShloMosaic.Pipeline (Dat)

namespace Value1

open Idealize.ShloMosaic.ValueIdx

/-- Each window's block offsets at point `t` = (row block `t / 2`, column block `t % 2`). -/
theorem off_facts : ∀ t : Fin cfg1.N,
    (∀ a : Fin 2, win1_0.index t a * win1_0.size a = ![512 * (t.val / 2), 0] a)
    ∧ (∀ a : Fin 2, win1_1.index t a * win1_1.size a = ![0, 1024 * (t.val % 2)] a)
    ∧ (∀ a : Fin 2, win1_2.index t a * win1_2.size a = ![0, 1024 * (t.val % 2)] a)
    ∧ (∀ a : Fin 2, win1_3.index t a * win1_3.size a = ![512 * (t.val / 2), 1024 * (t.val % 2)] a) :=
  (by decide +kernel : ∀ t : Fin grid1.N, _)

variable (V : (c : Dev nD) → (b : Ref sig .tc) → Buf (Elt Ideal) ((c : Thread nD τ).loc b))

abbrev X (c : Dev nD) : S8192x1024.Idx → EReal := V c main_v1
abbrev W (c : Dev nD) : S1024x2048.Idx → EReal := V c main_arg3
abbrev B (c : Dev nD) : S1x2048.Idx → EReal := V c main_v2

theorem xblk_apply (c : Dev nD) (t : Fin cfg1.N) (p : Fin 512) (k : Fin 1024) (r : Fin 8192)
    (hr : r.val = 512 * (t.val / 2) + p.val) : xblk1 V c t (ix2 p k) = X V c (ix2 r k) :=
  Cert.Lib.read_block main_v1 _ (off_facts t).1 _ _ _ (Fin.forall_fin_two.mpr ⟨hr, (Nat.zero_add _).symm⟩)

theorem wblk_apply (c : Dev nD) (t : Fin cfg1.N) (k q : Fin 1024) (j : Fin 2048) (hj : j.val = 1024 * (t.val % 2) + q.val) :
    wblk1 V c t (ix2 k q) = W V c (ix2 k j) :=
  Cert.Lib.read_block main_arg3 _ (off_facts t).2.1 _ _ _ (Fin.forall_fin_two.mpr ⟨(Nat.zero_add _).symm, hj⟩)

theorem bblk_apply (c : Dev nD) (t : Fin cfg1.N) (q : Fin 1024) (j : Fin 2048) (hj : j.val = 1024 * (t.val % 2) + q.val) :
    bblk1 V c t (ix2 (0 : Fin 1) q) = B V c (ix2 (0 : Fin 1) j) :=
  Cert.Lib.read_block main_v2 _ (off_facts t).2.2.1 _ _ _ (Fin.forall_fin_two.mpr ⟨rfl, hj⟩)

theorem pay1_apply (i : S512x1024.Idx) : k1_pay1 (F := Ideal) i = 0 := by
  unfold k1_pay1
  exact (congrFun (shapeCast_self _ _) i).trans Ideal.ofBits_zero_f32

/-- The one K-step adds the input block's row against the quantized weight block's column. -/
theorem pay2_apply (w : Vec Ideal S1024x1024 .f32) (x a : Vec Ideal S512x1024 .f32) (p : Fin 512) (q : Fin 1024) :
    k1_pay2 w x a (ix2 p q) = a (ix2 p q) + ∑ k : Fin 1024, x (ix2 p k) * qs (w (ix2 k q)) := by
  unfold k1_pay2
  simp only [shapeCast_self]
  exact congrArg (a (ix2 p q) + ·) (Cert.Lib.matmul_plain_apply none _ _ p q)

theorem pay3_apply (b : Vec Ideal S1x1024 .f32) (a : Vec Ideal S512x1024 .f32) (p : Fin 512) (q : Fin 1024) :
    k1_pay3 b a (ix2 p q) = qa (a (ix2 p q) + qs (b (ix2 (0 : Fin 1) q))) := by
  unfold k1_pay3
  simp only [shapeCast_self]
  exact congrArg (fun z => qa (a (ix2 p q) + z)) (broadcastTo_1b_ab_apply _ _ p q)

abbrev G (c : Dev nD) : S8192x2048.Idx → EReal := layer true (X V c) (W V c) (fun j => B V c (ix2 (0 : Fin 1) (j 0)))

/-- What a point writes back is its block of the layer: the one K-step over the zero block is the whole contraction. -/
theorem flushed_eq (c : Dev nD) (t : Fin cfg1.N) (_ : (cfg1.win 3).flush t = true) :
    (dat1 (F := Ideal) V c).flushed 3 t = ((cfg1.win 3).blk t).view.read (Elt Ideal) (G V c) := by
  show (cfg1.win 3).cut (grid1.coords t) ((dat1 V c).after 3 t) = _
  rw [after1_3]
  funext y
  obtain ⟨p, q, rfl⟩ : ∃ (p : Fin 512) (q : Fin 1024), y = ix2 p q := ⟨y 0, y 1, eq_ix2 y⟩
  refine Cert.Lib.eq_read_block main_v3 _ (off_facts t).2.2.2 _ _ _ fun i hi => ?_
  obtain ⟨r, j, rfl⟩ : ∃ (r : Fin 8192) (j : Fin 2048), i = ix2 r j := ⟨i 0, i 1, eq_ix2 i⟩
  show k1_pay3 (bblk1 V c t) (accAt1 V c t.val t.isLt) (ix2 p q) = _
  unfold accAt1
  rw [pay3_apply, pay2_apply, pay1_apply, zero_add, bblk_apply V c t q j (hi (1 : Fin 2))]
  exact congrArg (fun z => qa (z + _)) (Finset.sum_congr rfl fun k _ =>
    congrArg₂ (· * ·) (xblk_apply V c t p k r (hi (0 : Fin 2))) (congrArg qs (wblk_apply V c t k q j (hi (1 : Fin 2)))))

/-- Row `r`, column `j` lies in the block of the point (r / 512, j / 1024). -/
theorem cover (i : S8192x2048.Idx) : ∃ t : Fin cfg1.N, (cfg1.win 3).flush t = true ∧ i ∈ ((cfg1.win 3).blk t).view.set := by
  have h0 : (i 0).val < 8192 := (i 0).isLt
  have h1 : (i 1).val < 2048 := (i 1).isLt
  obtain ⟨n, hn⟩ : ∃ n, n = 2 * ((i 0).val / 512) + (i 1).val / 1024 := ⟨_, rfl⟩
  have ht : n < cfg1.N := by show n < 32; omega
  refine ⟨⟨n, ht⟩, flush1_3 _, (Cert.Lib.mem_block main_v3 _ (off_facts ⟨n, ht⟩).2.2.2 i).mpr (Fin.forall_fin_two.mpr ⟨?_, ?_⟩)⟩
  · show 512 * (n / 2) ≤ (i 0).val ∧ (i 0).val < 512 * (n / 2) + 512; omega
  · show 1024 * (n % 2) ≤ (i 1).val ∧ (i 1).val < 1024 * (n % 2) + 1024; omega

end Value1

theorem final1 (V : (c : Dev nD) → (b : Ref sig .tc) → Buf (Elt Ideal) ((c : Thread nD τ).loc b)) (c : Dev nD) :
    (dat1 (F := Ideal) V c).arrAt 3 cfg1.N
      = Cert.Spec.layer true (V c main_v1) (V c main_arg3) (fun j => V c main_v2 (ValueIdx.ix2 (0 : Fin 1) (j 0))) :=
  (dat1 (F := Ideal) V c).arrAt_eq_of_cover 3 _ (Value1.flushed_eq V c) Value1.cover

end Cert.KernelIdeal.Hand

end
-- ==== Proof.KIValue2.lean ====
import proofs.«118811_j6030134084248_1_alg».proof.Proof.KIRegion2
import proofs.«118811_j6030134084248_1_alg».proof.Proof.Net
import proofs.«118811_j6030134084248_1_alg».proof.Proof.LibPlainDot
import proofs.«118811_j6030134084248_1_alg».proof.Proof.LibTile
import Idealize.ShloMosaic.Lib.ValueLayout

noncomputable section

namespace Cert.KernelIdeal.Hand

open Cert.KernelIdeal Cert.KernelIdeal.Gen Cert.Spec
open Idealize.ShloMosaic Idealize.ShloMosaic.TcCoe Idealize.SL.Sem
open Idealize.ShloMosaic.Pipeline (Dat)

namespace Value2

open Idealize.ShloMosaic.ValueIdx

/-- Each window's block offsets at point `t` = (row block `t / 8`, column block `t / 2 % 4`, K-step `t % 2`). -/
theorem off_facts : ∀ t : Fin cfg2.N,
    (∀ a : Fin 2, win2_0.index t a * win2_0.size a = ![512 * (t.val / 8), t.val % 2 * 1024] a)
    ∧ (∀ a : Fin 2, win2_1.index t a * win2_1.size a = ![t.val % 2 * 1024, 1024 * (t.val / 2 % 4)] a)
    ∧ (∀ a : Fin 2, win2_2.index t a * win2_2.size a = ![0, 1024 * (t.val / 2 % 4)] a)
    ∧ (∀ a : Fin 2, win2_3.index t a * win2_3.size a = ![512 * (t.val / 8), 1024 * (t.val / 2 % 4)] a) :=
  (by decide +kernel : ∀ t : Fin grid2.N, _)

variable (V : (c : Dev nD) → (b : Ref sig .tc) → Buf (Elt Ideal) ((c : Thread nD τ).loc b))

abbrev X (c : Dev nD) : S8192x2048.Idx → EReal := V c main_v3
abbrev W (c : Dev nD) : S2048x4096.Idx → EReal := V c main_arg5
abbrev B (c : Dev nD) : S1x4096.Idx → EReal := V c main_v4

theorem xblk_apply (c : Dev nD) (t : Fin cfg2.N) (p : Fin 512) (k : Fin 1024) (r : Fin 8192) (kk : Fin 2048)
    (hr : r.val = 512 * (t.val / 8) + p.val) (hk : kk.val = t.val % 2 * 1024 + k.val) :
    xblk2 V c t (ix2 p k) = X V c (ix2 r kk) :=
  Cert.Lib.read_block main_v3 _ (off_facts t).1 _ _ _ (Fin.forall_fin_two.mpr ⟨hr, hk⟩)

theorem wblk_apply (c : Dev nD) (t : Fin cfg2.N) (k q : Fin 1024) (kk : Fin 2048) (j : Fin 4096)
    (hk : kk.val = t.val % 2 * 1024 + k.val) (hj : j.val = 1024 * (t.val / 2 % 4) + q.val) :
    wblk2 V c t (ix2 k q) = W V c (ix2 kk j) :=
  Cert.Lib.read_block main_arg5 _ (off_facts t).2.1 _ _ _ (Fin.forall_fin_two.mpr ⟨hk, hj⟩)

theorem bblk_apply (c : Dev nD) (t : Fin cfg2.N) (q : Fin 1024) (j : Fin 4096) (hj : j.val = 1024 * (t.val / 2 % 4) + q.val) :
    bblk2 V c t (ix2 (0 : Fin 1) q) = B V c (ix2 (0 : Fin 1) j) :=
  Cert.Lib.read_block main_v4 _ (off_facts t).2.2.1 _ _ _ (Fin.forall_fin_two.mpr ⟨rfl, hj⟩)

theorem pay1_apply (i : S512x1024.Idx) : k2_pay1 (F := Ideal) i = 0 := by
  unfold k2_pay1
  exact (congrFun (shapeCast_self _ _) i).trans Ideal.ofBits_zero_f32

/-- One K-step adds the input block's row against the quantized weight block's column. -/
theorem pay2_apply (w : Vec Ideal S1024x1024 .f32) (x a : Vec Ideal S512x1024 .f32) (p : Fin 512) (q : Fin 1024) :
    k2_pay2 w x a (ix2 p q) = a (ix2 p q) + ∑ k : Fin 1024, x (ix2 p k) * qs (w (ix2 k q)) := by
  unfold k2_pay2
  simp only [shapeCast_self]
  exact congrArg (a (ix2 p q) + ·) (Cert.Lib.matmul_plain_apply none _ _ p q)

theorem pay3_apply (b : Vec Ideal S1x1024 .f32) (a : Vec Ideal S512x1024 .f32) (p : Fin 512) (q : Fin 1024) :
    k2_pay3 b a (ix2 p q) = qa (a (ix2 p q) + qs (b (ix2 (0 : Fin 1) q))) := by
  unfold k2_pay3
  simp only [shapeCast_self]
  exact congrArg (fun z => qa (a (ix2 p q) + z)) (broadcastTo_1b_ab_apply _ _ p q)

/-- After a last K-step the accumulator holds the whole contraction of its row and column. -/
theorem acc_last (c : Dev nD) (t : Fin cfg2.N) (h1 : t.val % 2 = 1) (p : Fin 512) (q : Fin 1024) (r : Fin 8192) (j : Fin 4096)
    (hr : r.val = 512 * (t.val / 8) + p.val) (hj : j.val = 1024 * (t.val / 2 % 4) + q.val) :
    accAt2 V c t.val t.isLt (ix2 p q) = ∑ k : Fin (2 * 1024), X V c (ix2 r k) * qs (W V c (ix2 k j)) :=
  Cert.Lib.acc_last (A := 2) (B := 1024) _ (fun n hn => accAt2 V c n hn (ix2 p q))
    (fun n hn => ∑ k : Fin 1024, xblk2 V c ⟨n, hn⟩ (ix2 p k) * qs (wblk2 V c ⟨n, hn⟩ (ix2 k q))) (· % 2)
    (fun n => r.val = 512 * (n / 8) + p.val ∧ j.val = 1024 * (n / 2 % 4) + q.val) rfl
    (fun n (h : (n + 1) % 2 ≠ 0) => ⟨by omega, fun ⟨a, b⟩ => ⟨by omega, by omega⟩⟩)
    (fun n hn h => by rw [accAt2_first V c ⟨n, hn⟩ h, pay2_apply, pay1_apply, zero_add])
    (fun n hn h => by rw [accAt2_next V c ⟨n + 1, hn⟩ h, pay2_apply]; rfl)
    (fun n hn h hP => Finset.sum_congr rfl fun k _ => by
      rw [xblk_apply V c ⟨n, hn⟩ p k r ⟨_, Cert.Lib.run_lt h k.isLt⟩ hP.1 rfl,
        wblk_apply V c ⟨n, hn⟩ k q ⟨_, Cert.Lib.run_lt h k.isLt⟩ j rfl hP.2])
    t.val t.isLt (by omega) ⟨hr, hj⟩

abbrev G (c : Dev nD) : S8192x4096.Idx → EReal := layer true (X V c) (W V c) (fun j => B V c (ix2 (0 : Fin 1) (j 0)))

/-- What a last K-step writes back is its block of the layer. -/
theorem flushed_eq (c : Dev nD) (t : Fin cfg2.N) (hf : (cfg2.win 3).flush t = true) :
    (dat2 (F := Ideal) V c).flushed 3 t = ((cfg2.win 3).blk t).view.read (Elt Ideal) (G V c) := by
  show (cfg2.win 3).cut (grid2.coords t) ((dat2 V c).after 3 t) = _
  rw [after2_3]
  funext y
  obtain ⟨p, q, rfl⟩ : ∃ (p : Fin 512) (q : Fin 1024), y = ix2 p q := ⟨y 0, y 1, eq_ix2 y⟩
  refine Cert.Lib.eq_read_block main_v5 _ (off_facts t).2.2.2 _ _ _ fun i hi => ?_
  obtain ⟨r, j, rfl⟩ : ∃ (r : Fin 8192) (j : Fin 4096), i = ix2 r j := ⟨i 0, i 1, eq_ix2 i⟩
  show k2_pay3 (bblk2 V c t) (accAt2 V c t.val t.isLt) (ix2 p q) = _
  rw [pay3_apply, acc_last V c t ((flush2_3 t).mp hf) p q r j (hi (0 : Fin 2)) (hi (1 : Fin 2)), bblk_apply V c t q j (hi (1 : Fin 2))]
  rfl

/-- Every (row, column) lies in the block of the last K-step of its output block. -/
theorem cover (i : S8192x4096.Idx) : ∃ t : Fin cfg2.N, (cfg2.win 3).flush t = true ∧ i ∈ ((cfg2.win 3).blk t).view.set := by
  have h0 : (i 0).val < 8192 := (i 0).isLt
  have h1 : (i 1).val < 4096 := (i 1).isLt
  obtain ⟨n, hn⟩ : ∃ n, n = 8 * ((i 0).val / 512) + 2 * ((i 1).val / 1024) + 1 := ⟨_, rfl⟩
  have ht : n < cfg2.N := by show n < 128; omega
  refine ⟨⟨n, ht⟩, (flush2_3 _).mpr (by show n % 2 = 1; omega), (Cert.Lib.mem_block main_v5 _ (off_facts ⟨n, ht⟩).2.2.2 i).mpr (Fin.forall_fin_two.mpr ⟨?_, ?_⟩)⟩
  · show 512 * (n / 8) ≤ (i 0).val ∧ (i 0).val < 512 * (n / 8) + 512; omega
  · show 1024 * (n / 2 % 4) ≤ (i 1).val ∧ (i 1).val < 1024 * (n / 2 % 4) + 1024; omega

end Value2

theorem final2 (V : (c : Dev nD) → (b : Ref sig .tc) → Buf (Elt Ideal) ((c : Thread nD τ).loc b)) (c : Dev nD) :
    (dat2 (F := Ideal) V c).arrAt 3 cfg2.N
      = Cert.Spec.layer true (V c main_v3) (V c main_arg5) (fun j => V c main_v4 (ValueIdx.ix2 (0 : Fin 1) (j 0))) :=
  (dat2 (F := Ideal) V c).arrAt_eq_of_cover 3 _ (Value2.flushed_eq V c) Value2.cover

end Cert.KernelIdeal.Hand

end
-- ==== Proof.KIValue3.lean ====
import proofs.«118811_j6030134084248_1_alg».proof.Proof.KIRegion3
import proofs.«118811_j6030134084248_1_alg».proof.Proof.Net
import proofs.«118811_j6030134084248_1_alg».proof.Proof.LibPlainDot
import proofs.«118811_j6030134084248_1_alg».proof.Proof.LibTile
import Idealize.ShloMosaic.Lib.ValueLayout

noncomputable section

namespace Cert.KernelIdeal.Hand

open Cert.KernelIdeal Cert.KernelIdeal.Gen Cert.Spec
open Idealize.ShloMosaic Idealize.ShloMosaic.TcCoe Idealize.SL.Sem
open Idealize.ShloMosaic.Pipeline (Dat)

namespace Value3

open Idealize.ShloMosaic.ValueIdx

/-- Each window's block offsets at point `t` = (row block `t / 16`, column block `t / 4 % 4`, K-step `t % 4`). -/
theorem off_facts : ∀ t : Fin cfg3.N,
    (∀ a : Fin 2, win3_0.index t a * win3_0.size a = ![512 * (t.val / 16), t.val % 4 * 1024] a)
    ∧ (∀ a : Fin 2, win3_1.index t a * win3_1.size a = ![t.val % 4 * 1024, 1024 * (t.val / 4 % 4)] a)
    ∧ (∀ a : Fin 2, win3_2.index t a * win3_2.size a = ![0, 1024 * (t.val / 4 % 4)] a)
    ∧ (∀ a : Fin 2, win3_3.index t a * win3_3.size a = ![512 * (t.val / 16), 1024 * (t.val / 4 % 4)] a) :=
  (by decide +kernel : ∀ t : Fin grid3.N, _)

variable (V : (c : Dev nD) → (b : Ref sig .tc) → Buf (Elt Ideal) ((c : Thread nD τ).loc b))

abbrev X (c : Dev nD) : S8192x4096.Idx → EReal := V c main_v5
abbrev W (c : Dev nD) : S4096x4096.Idx → EReal := V c main_arg7
abbrev B (c : Dev nD) : S1x4096.Idx → EReal := V c main_v6

theorem xblk_apply (c : Dev nD) (t : Fin cfg3.N) (p : Fin 512) (k : Fin 1024) (r : Fin 8192) (kk : Fin 4096)
    (hr : r.val = 512 * (t.val / 16) + p.val) (hk : kk.val = t.val % 4 * 1024 + k.val) :
    xblk3 V c t (ix2 p k) = X V c (ix2 r kk) :=
  Cert.Lib.read_block main_v5 _ (off_facts t).1 _ _ _ (Fin.forall_fin_two.mpr ⟨hr, hk⟩)

theorem wblk_apply (c : Dev nD) (t : Fin cfg3.N) (k q : Fin 1024) (kk j : Fin 4096)
    (hk : kk.val = t.val % 4 * 1024 + k.val) (hj : j.val = 1024 * (t.val / 4 % 4) + q.val) :
    wblk3 V c t (ix2 k q) = W V c (ix2 kk j) :=
  Cert.Lib.read_block main_arg7 _ (off_facts t).2.1 _ _ _ (Fin.forall_fin_two.mpr ⟨hk, hj⟩)

theorem bblk_apply (c : Dev nD) (t : Fin cfg3.N) (q : Fin 1024) (j : Fin 4096) (hj : j.val = 1024 * (t.val / 4 % 4) + q.val) :
    bblk3 V c t (ix2 (0 : Fin 1) q) = B V c (ix2 (0 : Fin 1) j) :=
  Cert.Lib.read_block main_v6 _ (off_facts t).2.2.1 _ _ _ (Fin.forall_fin_two.mpr ⟨rfl, hj⟩)

theorem pay1_apply (i : S512x1024.Idx) : k3_pay1 (F := Ideal) i = 0 := by
  unfold k3_pay1
  exact (congrFun (shapeCast_self _ _) i).trans Ideal.ofBits_zero_f32

/-- One K-step adds the input block's row against the quantized weight block's column. -/
theorem pay2_apply (w : Vec Ideal S1024x1024 .f32) (x a : Vec Ideal S512x1024 .f32) (p : Fin 512) (q : Fin 1024) :
    k3_pay2 w x a (ix2 p q) = a (ix2 p q) + ∑ k : Fin 1024, x (ix2 p k) * qs (w (ix2 k q)) := by
  unfold k3_pay2
  simp only [shapeCast_self]
  exact congrArg (a (ix2 p q) + ·) (Cert.Lib.matmul_plain_apply none _ _ p q)

theorem pay3_apply (b : Vec Ideal S1x1024 .f32) (a : Vec Ideal S512x1024 .f32) (p : Fin 512) (q : Fin 1024) :
    k3_pay3 b a (ix2 p q) = a (ix2 p q) + qs (b (ix2 (0 : Fin 1) q)) := by
  unfold k3_pay3
  simp only [shapeCast_self]
  exact congrArg (a (ix2 p q) + ·) (broadcastTo_1b_ab_apply _ _ p q)

/-- After a last K-step the accumulator holds the whole contraction of its row and column. -/
theorem acc_last (c : Dev nD) (t : Fin cfg3.N) (h3 : t.val % 4 = 3) (p : Fin 512) (q : Fin 1024) (r : Fin 8192) (j : Fin 4096)
    (hr : r.val = 512 * (t.val / 16) + p.val) (hj : j.val = 1024 * (t.val / 4 % 4) + q.val) :
    accAt3 V c t.val t.isLt (ix2 p q) = ∑ k : Fin (4 * 1024), X V c (ix2 r k) * qs (W V c (ix2 k j)) :=
  Cert.Lib.acc_last (A := 4) (B := 1024) _ (fun n hn => accAt3 V c n hn (ix2 p q))
    (fun n hn => ∑ k : Fin 1024, xblk3 V c ⟨n, hn⟩ (ix2 p k) * qs (wblk3 V c ⟨n, hn⟩ (ix2 k q))) (· % 4)
    (fun n => r.val = 512 * (n / 16) + p.val ∧ j.val = 1024 * (n / 4 % 4) + q.val) rfl
    (fun n (h : (n + 1) % 4 ≠ 0) => ⟨by omega, fun ⟨a, b⟩ => ⟨by omega, by omega⟩⟩)
    (fun n hn h => by rw [accAt3_first V c ⟨n, hn⟩ h, pay2_apply, pay1_apply, zero_add])
    (fun n hn h => by rw [accAt3_next V c ⟨n + 1, hn⟩ h, pay2_apply]; rfl)
    (fun n hn h hP => Finset.sum_congr rfl fun k _ => by
      rw [xblk_apply V c ⟨n, hn⟩ p k r ⟨_, Cert.Lib.run_lt h k.isLt⟩ hP.1 rfl,
        wblk_apply V c ⟨n, hn⟩ k q ⟨_, Cert.Lib.run_lt h k.isLt⟩ j rfl hP.2])
    t.val t.isLt (by omega) ⟨hr, hj⟩

abbrev G (c : Dev nD) : S8192x4096.Idx → EReal := layer false (X V c) (W V c) (fun j => B V c (ix2 (0 : Fin 1) (j 0)))

/-- What a last K-step writes back is its block of the layer. -/
theorem flushed_eq (c : Dev nD) (t : Fin cfg3.N) (hf : (cfg3.win 3).flush t = true) :
    (dat3 (F := Ideal) V c).flushed 3 t = ((cfg3.win 3).blk t).view.read (Elt Ideal) (G V c) := by
  show (cfg3.win 3).cut (grid3.coords t) ((dat3 V c).after 3 t) = _
  rw [after3_3]
  funext y
  obtain ⟨p, q, rfl⟩ : ∃ (p : Fin 512) (q : Fin 1024), y = ix2 p q := ⟨y 0, y 1, eq_ix2 y⟩
  refine Cert.Lib.eq_read_block main_v7 _ (off_facts t).2.2.2 _ _ _ fun i hi => ?_
  obtain ⟨r, j, rfl⟩ : ∃ (r : Fin 8192) (j : Fin 4096), i = ix2 r j := ⟨i 0, i 1, eq_ix2 i⟩
  show k3_pay3 (bblk3 V c t) (accAt3 V c t.val t.isLt) (ix2 p q) = _
  rw [pay3_apply, acc_last V c t ((flush3_3 t).mp hf) p q r j (hi (0 : Fin 2)) (hi (1 : Fin 2)), bblk_apply V c t q j (hi (1 : Fin 2))]
  rfl

/-- Every (row, column) lies in the block of the last K-step of its output block. -/
theorem cover (i : S8192x4096.Idx) : ∃ t : Fin cfg3.N, (cfg3.win 3).flush t = true ∧ i ∈ ((cfg3.win 3).blk t).view.set := by
  have h0 : (i 0).val < 8192 := (i 0).isLt
  have h1 : (i 1).val < 4096 := (i 1).isLt
  obtain ⟨n, hn⟩ : ∃ n, n = 16 * ((i 0).val / 512) + 4 * ((i 1).val / 1024) + 3 := ⟨_, rfl⟩
  have ht : n < cfg3.N := by show n < 256; omega
  refine ⟨⟨n, ht⟩, (flush3_3 _).mpr (by show n % 4 = 3; omega), (Cert.Lib.mem_block main_v7 _ (off_facts ⟨n, ht⟩).2.2.2 i).mpr (Fin.forall_fin_two.mpr ⟨?_, ?_⟩)⟩
  · show 512 * (n / 16) ≤ (i 0).val ∧ (i 0).val < 512 * (n / 16) + 512; omega
  · show 1024 * (n / 4 % 4) ≤ (i 1).val ∧ (i 1).val < 1024 * (n / 4 % 4) + 1024; omega

end Value3

theorem final3 (V : (c : Dev nD) → (b : Ref sig .tc) → Buf (Elt Ideal) ((c : Thread nD τ).loc b)) (c : Dev nD) :
    (dat3 (F := Ideal) V c).arrAt 3 cfg3.N
      = Cert.Spec.layer false (V c main_v5) (V c main_arg7) (fun j => V c main_v6 (ValueIdx.ix2 (0 : Fin 1) (j 0))) :=
  (dat3 (F := Ideal) V c).arrAt_eq_of_cover 3 _ (Value3.flushed_eq V c) Value3.cover

end Cert.KernelIdeal.Hand

end
-- ==== Proof.RefRead.lean ====
import proofs.«118811_j6030134084248_1_alg».proof.Proof.Gen.ReferenceIdeal.Run
import proofs.«118811_j6030134084248_1_alg».proof.Proof.Gen.ReferenceIdeal.Read
-- ==== Proof.RefValue.lean ====
import proofs.«118811_j6030134084248_1_alg».proof.Proof.RefRead
import proofs.«118811_j6030134084248_1_alg».proof.Proof.Net

noncomputable section

namespace Cert.RefValue

open Idealize.ShloMosaic Idealize.ShloMosaic.ValueIdx Cert.ReferenceIdeal Cert.ReferenceIdeal.Read

variable (x0 : (⟨Cert.ReferenceIdeal.S8192x128, .f32⟩ : BufTy).Contents (Elt Ideal))
  (x1 : (⟨Cert.ReferenceIdeal.S128x1024, .f32⟩ : BufTy).Contents (Elt Ideal))
  (x2 : (⟨Cert.ReferenceIdeal.S1024, .f32⟩ : BufTy).Contents (Elt Ideal))
  (x3 : (⟨Cert.ReferenceIdeal.S1024x2048, .f32⟩ : BufTy).Contents (Elt Ideal))
  (x4 : (⟨Cert.ReferenceIdeal.S2048, .f32⟩ : BufTy).Contents (Elt Ideal))
  (x5 : (⟨Cert.ReferenceIdeal.S2048x4096, .f32⟩ : BufTy).Contents (Elt Ideal))
  (x6 : (⟨Cert.ReferenceIdeal.S4096, .f32⟩ : BufTy).Contents (Elt Ideal))
  (x7 : (⟨Cert.ReferenceIdeal.S4096x4096, .f32⟩ : BufTy).Contents (Elt Ideal))
  (x8 : (⟨Cert.ReferenceIdeal.S4096, .f32⟩ : BufTy).Contents (Elt Ideal))

theorem w0_at (i : S128x1024.Idx) : val_main_v7 (F := Ideal) x1 i = Cert.Spec.qsR (x1 i) := by
  rw [val_main_v7_apply, val_main_v6_apply, val_main_cst_2_apply, val_main_v5_apply, val_main_call1_v4_apply,
    val_main_call1_v3_apply, val_main_cst_1_apply, val_main_call1_v2_apply, val_main_call1_v1_apply,
    val_main_call1_v0_apply, val_main_cst_0_apply, val_main_v4_apply, val_main_v3_apply, val_main_v2_apply,
    val_main_v1_apply, val_main_v0_apply, val_main_cst_apply]
  rfl

theorem b0_at (i : S1024.Idx) : val_main_v15 (F := Ideal) x2 i = Cert.Spec.qsR (x2 i) := by
  rw [val_main_v15_apply, val_main_v14_apply, val_main_cst_6_apply, val_main_v13_apply, val_main_call3_v4_apply,
    val_main_call3_v3_apply, val_main_cst_5_apply, val_main_call3_v2_apply, val_main_call3_v1_apply,
    val_main_call3_v0_apply, val_main_cst_4_apply, val_main_v12_apply, val_main_v11_apply, val_main_v10_apply,
    val_main_v9_apply, val_main_v8_apply, val_main_cst_3_apply]
  rfl

theorem pre0_at (r : Fin 8192) (j : Fin 1024) :
    val_main_v19 (F := Ideal) x0 x1 x2 (ix2 r j)
      = Cert.Spec.pre Cert.Spec.qsR (fun k : Fin 128 => x0 (ix2 r k)) (fun k : Fin 128 => x1 (ix2 k j)) (x2 (ix1 j)) := by
  have hl : ∀ k : Fin 128, lidx_main_v16 (ix2 r j) k = ix2 r k := fun k => funext fun a => by
    match a with | ⟨0, _⟩ => rfl | ⟨1, _⟩ => rfl
  have hr : ∀ k : Fin 128, ridx_main_v16 (ix2 r j) k = ix2 k j := fun k => funext fun a => by
    match a with | ⟨0, _⟩ => rfl | ⟨1, _⟩ => rfl
  have hb : idx_main_v17 (idx_main_v18 (ix2 r j)) = ix1 j := funext fun a => by
    match a with | ⟨0, _⟩ => rfl
  rw [val_main_v19_apply, val_main_v16_apply, val_main_v18_apply, val_main_v17_apply, b0_at, hb]
  simp only [w0_at, hl, hr]
  rfl

theorem layer0_at (r : Fin 8192) (j : Fin 1024) :
    val_main_v27 (F := Ideal) x0 x1 x2 (ix2 r j) = Cert.Spec.layerAtR true x0 x1 x2 r j := by
  rw [val_main_v27_apply, val_main_v26_apply, val_main_cst_10_apply, val_main_v25_apply, val_main_call5_v4_apply,
    val_main_call5_v3_apply, val_main_cst_9_apply, val_main_call5_v2_apply, val_main_call5_v1_apply,
    val_main_call5_v0_apply, val_main_cst_8_apply, val_main_v24_apply, val_main_v23_apply, val_main_v22_apply,
    val_main_v21_apply, val_main_v20_apply, val_main_cst_7_apply, pre0_at]
  rfl

theorem layer0_eq : val_main_v27 (F := Ideal) x0 x1 x2 = Cert.Spec.layerR true x0 x1 x2 := by
  funext i
  obtain ⟨r, j, rfl⟩ : ∃ (r : Fin 8192) (j : Fin 1024), i = ix2 r j := ⟨i 0, i 1, eq_ix2 i⟩
  rw [layer0_at]; rfl

theorem w1_at (i : S1024x2048.Idx) : val_main_v35 (F := Ideal) x3 i = Cert.Spec.qsR (x3 i) := by
  rw [val_main_v35_apply, val_main_v34_apply, val_main_cst_14_apply, val_main_v33_apply, val_main_call7_v4_apply,
    val_main_call7_v3_apply, val_main_cst_13_apply, val_main_call7_v2_apply, val_main_call7_v1_apply,
    val_main_call7_v0_apply, val_main_cst_12_apply, val_main_v32_apply, val_main_v31_apply, val_main_v30_apply,
    val_main_v29_apply, val_main_v28_apply, val_main_cst_11_apply]
  rfl

theorem b1_at (i : S2048.Idx) : val_main_v43 (F := Ideal) x4 i = Cert.Spec.qsR (x4 i) := by
  rw [val_main_v43_apply, val_main_v42_apply, val_main_cst_18_apply, val_main_v41_apply, val_main_call9_v4_apply,
    val_main_call9_v3_apply, val_main_cst_17_apply, val_main_call9_v2_apply, val_main_call9_v1_apply,
    val_main_call9_v0_apply, val_main_cst_16_apply, val_main_v40_apply, val_main_v39_apply, val_main_v38_apply,
    val_main_v37_apply, val_main_v36_apply, val_main_cst_15_apply]
  rfl

theorem pre1_at (r : Fin 8192) (j : Fin 2048) :
    val_main_v47 (F := Ideal) x0 x1 x2 x3 x4 (ix2 r j)
      = Cert.Spec.pre Cert.Spec.qsR (fun k : Fin 1024 => val_main_v27 (F := Ideal) x0 x1 x2 (ix2 r k))
          (fun k : Fin 1024 => x3 (ix2 k j)) (x4 (ix1 j)) := by
  have hl : ∀ k : Fin 1024, lidx_main_v44 (ix2 r j) k = ix2 r k := fun k => funext fun a => by
    match a with | ⟨0, _⟩ => rfl | ⟨1, _⟩ => rfl
  have hr : ∀ k : Fin 1024, ridx_main_v44 (ix2 r j) k = ix2 k j := fun k => funext fun a => by
    match a with | ⟨0, _⟩ => rfl | ⟨1, _⟩ => rfl
  have hb : idx_main_v45 (idx_main_v46 (ix2 r j)) = ix1 j := funext fun a => by
    match a with | ⟨0, _⟩ => rfl
  rw [val_main_v47_apply, val_main_v44_apply, val_main_v46_apply, val_main_v45_apply, b1_at, hb]
  simp only [w1_at, hl, hr]
  rfl

theorem layer1_at (r : Fin 8192) (j : Fin 2048) :
    val_main_v55 (F := Ideal) x0 x1 x2 x3 x4 (ix2 r j)
      = Cert.Spec.layerAtR true (val_main_v27 (F := Ideal) x0 x1 x2) x3 x4 r j := by
  rw [val_main_v55_apply, val_main_v54_apply, val_main_cst_22_apply, val_main_v53_apply, val_main_call11_v4_apply,
    val_main_call11_v3_apply, val_main_cst_21_apply, val_main_call11_v2_apply, val_main_call11_v1_apply,
    val_main_call11_v0_apply, val_main_cst_20_apply, val_main_v52_apply, val_main_v51_apply, val_main_v50_apply,
    val_main_v49_apply, val_main_v48_apply, val_main_cst_19_apply, pre1_at]
  rfl

theorem layer1_eq :
    val_main_v55 (F := Ideal) x0 x1 x2 x3 x4 = Cert.Spec.layerR true (val_main_v27 (F := Ideal) x0 x1 x2) x3 x4 := by
  funext i
  obtain ⟨r, j, rfl⟩ : ∃ (r : Fin 8192) (j : Fin 2048), i = ix2 r j := ⟨i 0, i 1, eq_ix2 i⟩
  rw [layer1_at]; rfl

theorem w2_at (i : S2048x4096.Idx) : val_main_v63 (F := Ideal) x5 i = Cert.Spec.qsR (x5 i) := by
  rw [val_main_v63_apply, val_main_v62_apply, val_main_cst_26_apply, val_main_v61_apply, val_main_call13_v4_apply,
    val_main_call13_v3_apply, val_main_cst_25_apply, val_main_call13_v2_apply, val_main_call13_v1_apply,
    val_main_call13_v0_apply, val_main_cst_24_apply, val_main_v60_apply, val_main_v59_apply, val_main_v58_apply,
    val_main_v57_apply, val_main_v56_apply, val_main_cst_23_apply]
  rfl

theorem b2_at (i : S4096.Idx) : val_main_v71 (F := Ideal) x6 i = Cert.Spec.qsR (x6 i) := by
  rw [val_main_v71_apply, val_main_v70_apply, val_main_cst_30_apply, val_main_v69_apply, val_main_call15_v4_apply,
    val_main_call15_v3_apply, val_main_cst_29_apply, val_main_call15_v2_apply, val_main_call15_v1_apply,
    val_main_call15_v0_apply, val_main_cst_28_apply, val_main_v68_apply, val_main_v67_apply, val_main_v66_apply,
    val_main_v65_apply, val_main_v64_apply, val_main_cst_27_apply]
  rfl

theorem pre2_at (r : Fin 8192) (j : Fin 4096) :
    val_main_v75 (F := Ideal) x0 x1 x2 x3 x4 x5 x6 (ix2 r j)
      = Cert.Spec.pre Cert.Spec.qsR (fun k : Fin 2048 => val_main_v55 (F := Ideal) x0 x1 x2 x3 x4 (ix2 r k))
          (fun k : Fin 2048 => x5 (ix2 k j)) (x6 (ix1 j)) := by
  have hl : ∀ k : Fin 2048, lidx_main_v72 (ix2 r j) k = ix2 r k := fun k => funext fun a => by
    match a with | ⟨0, _⟩ => rfl | ⟨1, _⟩ => rfl
  have hr : ∀ k : Fin 2048, ridx_main_v72 (ix2 r j) k = ix2 k j := fun k => funext fun a => by
    match a with | ⟨0, _⟩ => rfl | ⟨1, _⟩ => rfl
  have hb : idx_main_v73 (idx_main_v74 (ix2 r j)) = ix1 j := funext fun a => by
    match a with | ⟨0, _⟩ => rfl
  rw [val_main_v75_apply, val_main_v72_apply, val_main_v74_apply, val_main_v73_apply, b2_at, hb]
  simp only [w2_at, hl, hr]
  rfl

theorem layer2_at (r : Fin 8192) (j : Fin 4096) :
    val_main_v83 (F := Ideal) x0 x1 x2 x3 x4 x5 x6 (ix2 r j)
      = Cert.Spec.layerAtR true (val_main_v55 (F := Ideal) x0 x1 x2 x3 x4) x5 x6 r j := by
  rw [val_main_v83_apply, val_main_v82_apply, val_main_cst_34_apply, val_main_v81_apply, val_main_call17_v4_apply,
    val_main_call17_v3_apply, val_main_cst_33_apply, val_main_call17_v2_apply, val_main_call17_v1_apply,
    val_main_call17_v0_apply, val_main_cst_32_apply, val_main_v80_apply, val_main_v79_apply, val_main_v78_apply,
    val_main_v77_apply, val_main_v76_apply, val_main_cst_31_apply, pre2_at]
  rfl

theorem layer2_eq :
    val_main_v83 (F := Ideal) x0 x1 x2 x3 x4 x5 x6
      = Cert.Spec.layerR true (val_main_v55 (F := Ideal) x0 x1 x2 x3 x4) x5 x6 := by
  funext i
  obtain ⟨r, j, rfl⟩ : ∃ (r : Fin 8192) (j : Fin 4096), i = ix2 r j := ⟨i 0, i 1, eq_ix2 i⟩
  rw [layer2_at]; rfl

theorem w3_at (i : S4096x4096.Idx) : val_main_v91 (F := Ideal) x7 i = Cert.Spec.qsR (x7 i) := by
  rw [val_main_v91_apply, val_main_v90_apply, val_main_cst_38_apply, val_main_v89_apply, val_main_call19_v4_apply,
    val_main_call19_v3_apply, val_main_cst_37_apply, val_main_call19_v2_apply, val_main_call19_v1_apply,
    val_main_call19_v0_apply, val_main_cst_36_apply, val_main_v88_apply, val_main_v87_apply, val_main_v86_apply,
    val_main_v85_apply, val_main_v84_apply, val_main_cst_35_apply]
  rfl

theorem b3_at (i : S4096.Idx) : val_main_v99 (F := Ideal) x8 i = Cert.Spec.qsR (x8 i) := by
  rw [val_main_v99_apply, val_main_v98_apply, val_main_cst_42_apply, val_main_v97_apply, val_main_call21_v4_apply,
    val_main_call21_v3_apply, val_main_cst_41_apply, val_main_call21_v2_apply, val_main_call21_v1_apply,
    val_main_call21_v0_apply, val_main_cst_40_apply, val_main_v96_apply, val_main_v95_apply, val_main_v94_apply,
    val_main_v93_apply, val_main_v92_apply, val_main_cst_39_apply]
  rfl

theorem layer3_at (r : Fin 8192) (j : Fin 4096) :
    val_main_v103 (F := Ideal) x0 x1 x2 x3 x4 x5 x6 x7 x8 (ix2 r j)
      = Cert.Spec.layerAtR false (val_main_v83 (F := Ideal) x0 x1 x2 x3 x4 x5 x6) x7 x8 r j := by
  have hl : ∀ k : Fin 4096, lidx_main_v100 (ix2 r j) k = ix2 r k := fun k => funext fun a => by
    match a with | ⟨0, _⟩ => rfl | ⟨1, _⟩ => rfl
  have hr : ∀ k : Fin 4096, ridx_main_v100 (ix2 r j) k = ix2 k j := fun k => funext fun a => by
    match a with | ⟨0, _⟩ => rfl | ⟨1, _⟩ => rfl
  have hb : idx_main_v101 (idx_main_v102 (ix2 r j)) = ix1 j := funext fun a => by
    match a with | ⟨0, _⟩ => rfl
  rw [val_main_v103_apply, val_main_v100_apply, val_main_v102_apply, val_main_v101_apply, b3_at, hb]
  simp only [w3_at, hl, hr]
  rfl

theorem layer3_eq :
    val_main_v103 (F := Ideal) x0 x1 x2 x3 x4 x5 x6 x7 x8
      = Cert.Spec.layerR false (val_main_v83 (F := Ideal) x0 x1 x2 x3 x4 x5 x6) x7 x8 := by
  funext i
  obtain ⟨r, j, rfl⟩ : ∃ (r : Fin 8192) (j : Fin 4096), i = ix2 r j := ⟨i 0, i 1, eq_ix2 i⟩
  rw [layer3_at]; rfl

/-- Each stage, read at a position from the stage before it, is one dense layer in the `p + (round p - p)` spelling. -/
theorem ref_is_netR :
    Cert.ReferenceIdeal.Read.val_main_v103 (F := Ideal) x0 x1 x2 x3 x4 x5 x6 x7 x8 = Cert.Spec.netR x0 x1 x2 x3 x4 x5 x6 x7 x8 := by
  rw [layer3_eq, layer2_eq, layer1_eq, layer0_eq]
  rfl

end Cert.RefValue

end
-- ==== Proof.FiniteInputs.lean ====
import proofs.«118811_j6030134084248_1_alg».proof.Pre_finite_inputs
import proofs.«118811_j6030134084248_1_alg».proof.Proof.Gen.Pre_finite_inputs
import proofs.«118811_j6030134084248_1_alg».proof.Proof.Net
import Idealize.ShloMosaic.Lib.ReduceAll
import Idealize.ShloMosaic.Lib.ValueIdx
import Idealize.ShloMosaic.PureOps.Ideal

noncomputable section

namespace Cert.FiniteInputs

open Idealize.ShloMosaic

theorem ofBits_inf : Ideal.ofBits .f32 0x7F800000#32 = (⊤ : EReal) := by
  simp [Ideal.ofBits, Ideal.ieee]

/-- `max x (-x) < ⊤` excludes `x = ⊤` and `x = ⊥`, so `x` is a real. -/
theorem real_of_abs_lt_inf (x : EReal)
    (h : FloatOps.cmpf (F := Ideal) (φ := .f32) .olt (FloatOps.hostAbsf (F := Ideal) (φ := .f32) x)
        (FloatOps.ofBits (F := Ideal) .f32 0x7F800000#32) = 1#1) :
    Cert.Spec.Fin' x := by
  change Ideal.cmp .olt (max x (-x)) (Ideal.ofBits .f32 0x7F800000#32) = 1#1 at h
  rw [ofBits_inf] at h
  unfold Ideal.cmp at h
  have hlt : max x (-x) < ⊤ := by
    by_contra hn
    simp [hn] at h
  induction x using EReal.rec with
  | bot => simp at hlt
  | coe r => exact ⟨r, rfl⟩
  | top => simp at hlt

instance : Subsingleton (⟨0, ![]⟩ : Shape).Idx := ⟨fun a b => funext fun d => d.elim0⟩

theorem allReal_of_all {S : Shape} {axes : List (Fin S.rank)} (A : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (e : Host.reduce IntOp.andi
        (cmpf .olt (Host.absf A) (broadcastInDim S ![] hb (constant (⟨0, ![]⟩ : Shape) .f32 0x7F800000#32)))
        (constantI (⟨0, ![]⟩ : Shape) 1 1#1) hr hu ValueIdx.ix0 = 1#1) :
    Cert.Spec.AllReal A := by
  intro i
  have hi := Host.reduce_andi_all _ _ hr hu ValueIdx.ix0 e i
  exact real_of_abs_lt_inf (A i) hi

open Cert.Pre_finite_inputs in

theorem allReal_of_pre [hP : Cert.Pre_finite_inputs.Facts]
    (a0 : (⟨Cert.Pre_finite_inputs.S8192x128, .f32⟩ : BufTy).Contents (Elt Ideal))
    (a1 : (⟨Cert.Pre_finite_inputs.S128x1024, .f32⟩ : BufTy).Contents (Elt Ideal))
    (a2 : (⟨Cert.Pre_finite_inputs.S1024, .f32⟩ : BufTy).Contents (Elt Ideal))
    (a3 : (⟨Cert.Pre_finite_inputs.S1024x2048, .f32⟩ : BufTy).Contents (Elt Ideal))
    (a4 : (⟨Cert.Pre_finite_inputs.S2048, .f32⟩ : BufTy).Contents (Elt Ideal))
    (a5 : (⟨Cert.Pre_finite_inputs.S2048x4096, .f32⟩ : BufTy).Contents (Elt Ideal))
    (a6 : (⟨Cert.Pre_finite_inputs.S4096, .f32⟩ : BufTy).Contents (Elt Ideal))
    (a7 : (⟨Cert.Pre_finite_inputs.S4096x4096, .f32⟩ : BufTy).Contents (Elt Ideal))
    (a8 : (⟨Cert.Pre_finite_inputs.S4096, .f32⟩ : BufTy).Contents (Elt Ideal))
    (h : Cert.Pre_finite_inputs.fn (F := Ideal) a0 a1 a2 a3 a4 a5 a6 a7 a8 = fun _ => 1#1) :
    Cert.Spec.AllReal a0 ∧ Cert.Spec.AllReal a1 ∧ Cert.Spec.AllReal a2 ∧ Cert.Spec.AllReal a3 ∧
      Cert.Spec.AllReal a4 ∧ Cert.Spec.AllReal a5 ∧ Cert.Spec.AllReal a6 ∧ Cert.Spec.AllReal a7 ∧
      Cert.Spec.AllReal a8 := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨e0, e1⟩, e2⟩, e3⟩, e4⟩, e5⟩, e6⟩, e7⟩, e8⟩ := h0
  exact ⟨allReal_of_all a0 _ _ _ e0, allReal_of_all a1 _ _ _ e1, allReal_of_all a2 _ _ _ e2,
    allReal_of_all a3 _ _ _ e3, allReal_of_all a4 _ _ _ e4, allReal_of_all a5 _ _ _ e5,
    allReal_of_all a6 _ _ _ e6, allReal_of_all a7 _ _ _ e7, allReal_of_all a8 _ _ _ e8⟩

end Cert.FiniteInputs

end
-- ==== Proof.lean ====
import proofs.«118811_j6030134084248_1_alg».proof.Defs
import proofs.«118811_j6030134084248_1_alg».proof.Proof.Gen.Kernel
import proofs.«118811_j6030134084248_1_alg».proof.Proof.Gen.KernelIdeal
import proofs.«118811_j6030134084248_1_alg».proof.Proof.Gen.ReferenceIdeal
import proofs.«118811_j6030134084248_1_alg».proof.Proof.Gen.Pre_finite_inputs
import proofs.«118811_j6030134084248_1_alg».proof.Proof.KBRun
import proofs.«118811_j6030134084248_1_alg».proof.Proof.KINet
import proofs.«118811_j6030134084248_1_alg».proof.Proof.KIValue0
import proofs.«118811_j6030134084248_1_alg».proof.Proof.KIValue1
import proofs.«118811_j6030134084248_1_alg».proof.Proof.KIValue2
import proofs.«118811_j6030134084248_1_alg».proof.Proof.KIValue3
import proofs.«118811_j6030134084248_1_alg».proof.Proof.RefValue
import proofs.«118811_j6030134084248_1_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result is the four-layer network of its arguments; the reference's is the same network with each rounding
    written `p + (round p - p)`, which is `round p` at a finite `p`, and finiteness passes from layer to layer. -/
theorem algebraic : Cert.algebraic_KernelIdeal_ReferenceIdeal := by
  intro m ρ m' ρ' hpre hagree
  refine ⟨_, Cert.KernelIdeal.Hand.run_value m ρ Cert.KernelIdeal.Hand.final0 Cert.KernelIdeal.Hand.final1
    Cert.KernelIdeal.Hand.final2 Cert.KernelIdeal.Hand.final3, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  obtain ⟨r0, r1, r2, r3, r4, r5, r6, r7, r8⟩ := Cert.FiniteInputs.allReal_of_pre _ _ _ _ _ _ _ _ _ (hpre c)
  rw [Cert.ReferenceIdeal.Read.val_main_v103_eq, Cert.RefValue.ref_is_netR, e0, e1, e2, e3, e4, e5, e6, e7, e8]
  exact Cert.Spec.netR_eq _ _ _ _ _ _ _ _ _ r0 r1 r2 r3 r4 r5 r6 r7 r8

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
